-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x1 : Shape := ⟨2, ![12288, 1]⟩
abbrev S12288x12288 : Shape := ⟨2, ![12288, 12288]⟩
abbrev S9x1x1 : Shape := ⟨3, ![9, 1, 1]⟩
abbrev S_ : Shape := ⟨0, ![]⟩

class Facts : Prop where
  bcast_S_S12288x1 : S_.BroadcastsInDim S12288x1 (![] : Fin 0 → Fin S12288x1.rank)
  reducesTo_S12288x1_S_d0_1 : S12288x1.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S9x1x1 : S_.BroadcastsInDim S9x1x1 (![] : Fin 0 → Fin S9x1x1.rank)
  reducesTo_S9x1x1_S_d0_1_2 : S9x1x1.ReducesTo [0, 1, 2] S_

variable [Facts]

def fn {F : FTy → Type} [FloatOps F] (main_arg0 : FVec F S12288x1 .f32) (main_arg1 : FVec F S12288x12288 .f32) (main_arg2 : FVec F S9x1x1 .f32) : IVec S_ 1 :=
  let main_v0 : FVec F S12288x1 .f32 := Host.absf main_arg0
  let main_cst : FVec F S_ .f32 := constant S_ .f32 0x7F800000#32
  let main_v1 : FVec F S12288x1 .f32 := broadcastInDim S12288x1 ![] bcast_S_S12288x1 main_cst
  let main_v2 : IVec S12288x1 1 := cmpf .olt main_v0 main_v1
  let main_c : IVec S_ 1 := constantI S_ 1 1#1
  let main_v3 : IVec S_ 1 := (fun x v => Host.reduce IntOp.andi x v reducesTo_S12288x1_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S9x1x1 .f32 := Host.absf main_arg2
  let main_cst_2 : FVec F S_ .f32 := constant S_ .f32 0x7F800000#32
  let main_v10 : FVec F S9x1x1 .f32 := broadcastInDim S9x1x1 ![] bcast_S_S9x1x1 main_cst_2
  let main_v11 : IVec S9x1x1 1 := cmpf .olt main_v9 main_v10
  let main_c_3 : IVec S_ 1 := constantI S_ 1 1#1
  let main_v12 : IVec S_ 1 := (fun x v => Host.reduce IntOp.andi x v reducesTo_S9x1x1_S_d0_1_2 h_S_) main_v11 main_c_3
  let main_v13 : IVec S_ 1 := andi main_v8 main_v12
  main_v13
-- ==== Kernel.lean ====
abbrev S12288x1 : Shape := ⟨2, ![12288, 1]⟩
abbrev S12288x12288 : Shape := ⟨2, ![12288, 12288]⟩
abbrev S9x1x1 : Shape := ⟨3, ![9, 1, 1]⟩
abbrev S1x1x1 : Shape := ⟨3, ![1, 1, 1]⟩
abbrev S1x1 : Shape := ⟨2, ![1, 1]⟩
abbrev S384x12288 : Shape := ⟨2, ![384, 12288]⟩
abbrev S384x1 : Shape := ⟨2, ![384, 1]⟩
abbrev S12288 : Shape := ⟨1, ![12288]⟩

abbrev nBuf : Space → Nat
  | .hbm => 32
  | .vmem => 72
  | .smem => 0
  | _ => 0

abbrev bufTy : (tb : Table) → Fin (tcTables nBuf tb) → BufTy
  | .hbm, ⟨0, _⟩ => ⟨S12288x1, .f32⟩
  | .hbm, ⟨1, _⟩ => ⟨S12288x12288, .f32⟩
  | .hbm, ⟨2, _⟩ => ⟨S9x1x1, .f32⟩
  | .hbm, ⟨3, _⟩ => ⟨S1x1x1, .f32⟩
  | .hbm, ⟨4, _⟩ => ⟨S1x1, .f32⟩
  | .hbm, ⟨5, _⟩ => ⟨S12288x1, .f32⟩
  | .hbm, ⟨6, _⟩ => ⟨S1x1x1, .f32⟩
  | .hbm, ⟨7, _⟩ => ⟨S1x1, .f32⟩
  | .hbm, ⟨8, _⟩ => ⟨S12288x1, .f32⟩
  | .hbm, ⟨9, _⟩ => ⟨S1x1x1, .f32⟩
  | .hbm, ⟨10, _⟩ => ⟨S1x1, .f32⟩
  | .hbm, ⟨11, _⟩ => ⟨S12288x1, .f32⟩
  | .hbm, ⟨12, _⟩ => ⟨S1x1x1, .f32⟩
  | .hbm, ⟨13, _⟩ => ⟨S1x1, .f32⟩
  | .hbm, ⟨14, _⟩ => ⟨S12288x1, .f32⟩
  | .hbm, ⟨15, _⟩ => ⟨S1x1x1, .f32⟩
  | .hbm, ⟨16, _⟩ => ⟨S1x1, .f32⟩
  | .hbm, ⟨17, _⟩ => ⟨S12288x1, .f32⟩
  | .hbm, ⟨18, _⟩ => ⟨S1x1x1, .f32⟩
  | .hbm, ⟨19, _⟩ => ⟨S1x1, .f32⟩
  | .hbm, ⟨20, _⟩ => ⟨S12288x1, .f32⟩
  | .hbm, ⟨21, _⟩ => ⟨S1x1x1, .f32⟩
  | .hbm, ⟨22, _⟩ => ⟨S1x1, .f32⟩
  | .hbm, ⟨23, _⟩ => ⟨S12288x1, .f32⟩
  | .hbm, ⟨24, _⟩ => ⟨S1x1x1, .f32⟩
  | .hbm, ⟨25, _⟩ => ⟨S1x1, .f32⟩
  | .hbm, ⟨26, _⟩ => ⟨S12288x1, .f32⟩
  | .hbm, ⟨27, _⟩ => ⟨S1x1x1, .f32⟩
  | .hbm, ⟨28, _⟩ => ⟨S1x1, .f32⟩
  | .hbm, ⟨29, _⟩ => ⟨S12288x1, .f32⟩
  | .hbm, ⟨30, _⟩ => ⟨S12288, .f32⟩
  | .hbm, ⟨31, _⟩ => ⟨S12288, .i32⟩
  | .local _ .vmem, ⟨0, _⟩ => ⟨S384x12288, .f32⟩
  | .local _ .vmem, ⟨1, _⟩ => ⟨S384x12288, .f32⟩
  | .local _ .vmem, ⟨2, _⟩ => ⟨S12288x1, .f32⟩
  | .local _ .vmem, ⟨3, _⟩ => ⟨S384x1, .f32⟩
  | .local _ .vmem, ⟨4, _⟩ => ⟨S384x1, .f32⟩
  | .local _ .vmem, ⟨5, _⟩ => ⟨S1x1, .f32⟩
  | .local _ .vmem, ⟨6, _⟩ => ⟨S384x1, .f32⟩
  | .local _ .vmem, ⟨7, _⟩ => ⟨S384x1, .f32⟩
  | .local _ .vmem, ⟨8, _⟩ => ⟨S384x12288, .f32⟩
  | .local _ .vmem, ⟨9, _⟩ => ⟨S384x12288, .f32⟩
  | .local _ .vmem, ⟨10, _⟩ => ⟨S12288x1, .f32⟩
  | .local _ .vmem, ⟨11, _⟩ => ⟨S384x1, .f32⟩
  | .local _ .vmem, ⟨12, _⟩ => ⟨S384x1, .f32⟩
  | .local _ .vmem, ⟨13, _⟩ => ⟨S1x1, .f32⟩
  | .local _ .vmem, ⟨14, _⟩ => ⟨S384x1, .f32⟩
  | .local _ .vmem, ⟨15, _⟩ => ⟨S384x1, .f32⟩
  | .local _ .vmem, ⟨16, _⟩ => ⟨S384x12288, .f32⟩
  | .local _ .vmem, ⟨17, _⟩ => ⟨S384x12288, .f32⟩
  | .local _ .vmem, ⟨18, _⟩ => ⟨S12288x1, .f32⟩
  | .local _ .vmem, ⟨19, _⟩ => ⟨S384x1, .f32⟩
  | .local _ .vmem, ⟨20, _⟩ => ⟨S384x1, .f32⟩
  | .local _ .vmem, ⟨21, _⟩ => ⟨S1x1, .f32⟩
  | .local _ .vmem, ⟨22, _⟩ => ⟨S384x1, .f32⟩
  | .local _ .vmem, ⟨23, _⟩ => ⟨S384x1, .f32⟩
  | .local _ .vmem, ⟨24, _⟩ => ⟨S384x12288, .f32⟩
  | .local _ .vmem, ⟨25, _⟩ => ⟨S384x12288, .f32⟩
  | .local _ .vmem, ⟨26, _⟩ => ⟨S12288x1, .f32⟩
  | .local _ .vmem, ⟨27, _⟩ => ⟨S384x1, .f32⟩
  | .local _ .vmem, ⟨28, _⟩ => ⟨S384x1, .f32⟩
  | .local _ .vmem, ⟨29, _⟩ => ⟨S1x1, .f32⟩
  | .local _ .vmem, ⟨30, _⟩ => ⟨S384x1, .f32⟩
  | .local _ .vmem, ⟨31, _⟩ => ⟨S384x1, .f32⟩
  | .local _ .vmem, ⟨32, _⟩ => ⟨S384x12288, .f32⟩
  | .local _ .vmem, ⟨33, _⟩ => ⟨S384x12288, .f32⟩
  | .local _ .vmem, ⟨34, _⟩ => ⟨S12288x1, .f32⟩
  | .local _ .vmem, ⟨35, _⟩ => ⟨S384x1, .f32⟩
  | .local _ .vmem, ⟨36, _⟩ => ⟨S384x1, .f32⟩
  | .local _ .vmem, ⟨37, _⟩ => ⟨S1x1, .f32⟩
  | .local _ .vmem, ⟨38, _⟩ => ⟨S384x1, .f32⟩
  | .local _ .vmem, ⟨39, _⟩ => ⟨S384x1, .f32⟩
  | .local _ .vmem, ⟨40, _⟩ => ⟨S384x12288, .f32⟩
  | .local _ .vmem, ⟨41, _⟩ => ⟨S384x12288, .f32⟩
  | .local _ .vmem, ⟨42, _⟩ => ⟨S12288x1, .f32⟩
  | .local _ .vmem, ⟨43, _⟩ => ⟨S384x1, .f32⟩
  | .local _ .vmem, ⟨44, _⟩ => ⟨S384x1, .f32⟩
  | .local _ .vmem, ⟨45, _⟩ => ⟨S1x1, .f32⟩
  | .local _ .vmem, ⟨46, _⟩ => ⟨S384x1, .f32⟩
  | .local _ .vmem, ⟨47, _⟩ => ⟨S384x1, .f32⟩
  | .local _ .vmem, ⟨48, _⟩ => ⟨S384x12288, .f32⟩
  | .local _ .vmem, ⟨49, _⟩ => ⟨S384x12288, .f32⟩
  | .local _ .vmem, ⟨50, _⟩ => ⟨S12288x1, .f32⟩
  | .local _ .vmem, ⟨51, _⟩ => ⟨S384x1, .f32⟩
  | .local _ .vmem, ⟨52, _⟩ => ⟨S384x1, .f32⟩
  | .local _ .vmem, ⟨53, _⟩ => ⟨S1x1, .f32⟩
  | .local _ .vmem, ⟨54, _⟩ => ⟨S384x1, .f32⟩
  | .local _ .vmem, ⟨55, _⟩ => ⟨S384x1, .f32⟩
  | .local _ .vmem, ⟨56, _⟩ => ⟨S384x12288, .f32⟩
  | .local _ .vmem, ⟨57, _⟩ => ⟨S384x12288, .f32⟩
  | .local _ .vmem, ⟨58, _⟩ => ⟨S12288x1, .f32⟩
  | .local _ .vmem, ⟨59, _⟩ => ⟨S384x1, .f32⟩
  | .local _ .vmem, ⟨60, _⟩ => ⟨S384x1, .f32⟩
  | .local _ .vmem, ⟨61, _⟩ => ⟨S1x1, .f32⟩
  | .local _ .vmem, ⟨62, _⟩ => ⟨S384x1, .f32⟩
  | .local _ .vmem, ⟨63, _⟩ => ⟨S384x1, .f32⟩
  | .local _ .vmem, ⟨64, _⟩ => ⟨S384x12288, .f32⟩
  | .local _ .vmem, ⟨65, _⟩ => ⟨S384x12288, .f32⟩
  | .local _ .vmem, ⟨66, _⟩ => ⟨S12288x1, .f32⟩
  | .local _ .vmem, ⟨67, _⟩ => ⟨S384x1, .f32⟩
  | .local _ .vmem, ⟨68, _⟩ => ⟨S384x1, .f32⟩
  | .local _ .vmem, ⟨69, _⟩ => ⟨S1x1, .f32⟩
  | .local _ .vmem, ⟨70, _⟩ => ⟨S384x1, .f32⟩
  | .local _ .vmem, ⟨71, _⟩ => ⟨S384x1, .f32⟩
  | _, _ => ⟨S12288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg4_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc8_sem3_0 : DmaSem sig := 69
abbrev cc8_sem4_0 : DmaSem sig := 70
abbrev cc8_sem4_1 : DmaSem sig := 71

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S384x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S384x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S384x12288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12288x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S384x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S384x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S384x12288 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S12288x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S384x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S384x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S384x12288 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S12288x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S384x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S384x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S384x12288 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S12288x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S384x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S384x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S384x12288 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S12288x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S384x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S384x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S384x12288 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S12288x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S384x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S384x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S384x12288 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S12288x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S384x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S384x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S9x1x1_S1x1x1_0_0_0 : S9x1x1.Slices ![0, 0, 0] S1x1x1
  shapeCasts_S1x1x1_S1x1 : S1x1x1.ShapeCasts S1x1
  inb_S384x12288_S384x12288_0_0 : ∀ a, (![0, 0] : Fin 2 → Nat) a + S384x12288.size a ≤ S384x12288.size a
  h_S384x12288 : 0 < S384x12288.numel
  inb_S12288x1_S12288x1_0_0 : ∀ a, (![0, 0] : Fin 2 → Nat) a + S12288x1.size a ≤ S12288x1.size a
  h_S12288x1 : 0 < S12288x1.numel
  inb_S384x1_S384x1_0_0 : ∀ a, (![0, 0] : Fin 2 → Nat) a + S384x1.size a ≤ S384x1.size a
  h_S384x1 : 0 < S384x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S9x1x1_S1x1x1_1_0_0 : S9x1x1.Slices ![1, 0, 0] S1x1x1
  shapeCasts_S12288x1_S12288x1 : S12288x1.ShapeCasts S12288x1
  slices_S9x1x1_S1x1x1_2_0_0 : S9x1x1.Slices ![2, 0, 0] S1x1x1
  slices_S9x1x1_S1x1x1_3_0_0 : S9x1x1.Slices ![3, 0, 0] S1x1x1
  slices_S9x1x1_S1x1x1_4_0_0 : S9x1x1.Slices ![4, 0, 0] S1x1x1
  slices_S9x1x1_S1x1x1_5_0_0 : S9x1x1.Slices ![5, 0, 0] S1x1x1
  slices_S9x1x1_S1x1x1_6_0_0 : S9x1x1.Slices ![6, 0, 0] S1x1x1
  slices_S9x1x1_S1x1x1_7_0_0 : S9x1x1.Slices ![7, 0, 0] S1x1x1
  slices_S9x1x1_S1x1x1_8_0_0 : S9x1x1.Slices ![8, 0, 0] S1x1x1
  shapeCasts_S12288x1_S12288 : S12288x1.ShapeCasts S12288
  dot_S384x12288_S12288x1_S384x1_1_0_0_1_n_n_wf : DotDims.WF S384x12288 S12288x1 S384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x12288.size a ≤ S12288x12288.size a
  hwx0_0 : ∀ i : grid0.Coords, EltTy.bits .f32 = 32 ∨ (Rect.block (s := S12288x12288) S384x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12288x1.size a ≤ S12288x1.size a
  hwx0_1 : ∀ i : grid0.Coords, EltTy.bits .f32 = 32 ∨ (Rect.block (s := S12288x1) S12288x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x1.size a ≤ S12288x1.size a
  hwx0_2 : ∀ i : grid0.Coords, EltTy.bits .f32 = 32 ∨ (Rect.block (s := S12288x1) S384x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S384x1.size a ≤ S12288x1.size a
  hwx0_4 : ∀ i : grid0.Coords, EltTy.bits .f32 = 32 ∨ (Rect.block (s := S12288x1) S384x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S384x12288.size a ≤ S12288x12288.size a
  hwx1_0 : ∀ i : grid1.Coords, EltTy.bits .f32 = 32 ∨ (Rect.block (s := S12288x12288) S384x12288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x1.size a ≤ S12288x1.size a
  hwx1_1 : ∀ i : grid1.Coords, EltTy.bits .f32 = 32 ∨ (Rect.block (s := S12288x1) S12288x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S384x1.size a ≤ S12288x1.size a
  hwx1_2 : ∀ i : grid1.Coords, EltTy.bits .f32 = 32 ∨ (Rect.block (s := S12288x1) S384x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S384x1.size a ≤ S12288x1.size a
  hwx1_4 : ∀ i : grid1.Coords, EltTy.bits .f32 = 32 ∨ (Rect.block (s := S12288x1) S384x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S384x12288.size a ≤ S12288x12288.size a
  hwx2_0 : ∀ i : grid2.Coords, EltTy.bits .f32 = 32 ∨ (Rect.block (s := S12288x12288) S384x12288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12288x1.size a ≤ S12288x1.size a
  hwx2_1 : ∀ i : grid2.Coords, EltTy.bits .f32 = 32 ∨ (Rect.block (s := S12288x1) S12288x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S384x1.size a ≤ S12288x1.size a
  hwx2_2 : ∀ i : grid2.Coords, EltTy.bits .f32 = 32 ∨ (Rect.block (s := S12288x1) S384x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S384x1.size a ≤ S12288x1.size a
  hwx2_4 : ∀ i : grid2.Coords, EltTy.bits .f32 = 32 ∨ (Rect.block (s := S12288x1) S384x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S384x12288.size a ≤ S12288x12288.size a
  hwx3_0 : ∀ i : grid3.Coords, EltTy.bits .f32 = 32 ∨ (Rect.block (s := S12288x12288) S384x12288.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12288x1.size a ≤ S12288x1.size a
  hwx3_1 : ∀ i : grid3.Coords, EltTy.bits .f32 = 32 ∨ (Rect.block (s := S12288x1) S12288x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S384x1.size a ≤ S12288x1.size a
  hwx3_2 : ∀ i : grid3.Coords, EltTy.bits .f32 = 32 ∨ (Rect.block (s := S12288x1) S384x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S384x1.size a ≤ S12288x1.size a
  hwx3_4 : ∀ i : grid3.Coords, EltTy.bits .f32 = 32 ∨ (Rect.block (s := S12288x1) S384x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S384x12288.size a ≤ S12288x12288.size a
  hwx4_0 : ∀ i : grid4.Coords, EltTy.bits .f32 = 32 ∨ (Rect.block (s := S12288x12288) S384x12288.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S12288x1.size a ≤ S12288x1.size a
  hwx4_1 : ∀ i : grid4.Coords, EltTy.bits .f32 = 32 ∨ (Rect.block (s := S12288x1) S12288x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S384x1.size a ≤ S12288x1.size a
  hwx4_2 : ∀ i : grid4.Coords, EltTy.bits .f32 = 32 ∨ (Rect.block (s := S12288x1) S384x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S384x1.size a ≤ S12288x1.size a
  hwx4_4 : ∀ i : grid4.Coords, EltTy.bits .f32 = 32 ∨ (Rect.block (s := S12288x1) S384x1.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S384x12288.size a ≤ S12288x12288.size a
  hwx5_0 : ∀ i : grid5.Coords, EltTy.bits .f32 = 32 ∨ (Rect.block (s := S12288x12288) S384x12288.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S12288x1.size a ≤ S12288x1.size a
  hwx5_1 : ∀ i : grid5.Coords, EltTy.bits .f32 = 32 ∨ (Rect.block (s := S12288x1) S12288x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S384x1.size a ≤ S12288x1.size a
  hwx5_2 : ∀ i : grid5.Coords, EltTy.bits .f32 = 32 ∨ (Rect.block (s := S12288x1) S384x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S384x1.size a ≤ S12288x1.size a
  hwx5_4 : ∀ i : grid5.Coords, EltTy.bits .f32 = 32 ∨ (Rect.block (s := S12288x1) S384x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S384x12288.size a ≤ S12288x12288.size a
  hwx6_0 : ∀ i : grid6.Coords, EltTy.bits .f32 = 32 ∨ (Rect.block (s := S12288x12288) S384x12288.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S12288x1.size a ≤ S12288x1.size a
  hwx6_1 : ∀ i : grid6.Coords, EltTy.bits .f32 = 32 ∨ (Rect.block (s := S12288x1) S12288x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S384x1.size a ≤ S12288x1.size a
  hwx6_2 : ∀ i : grid6.Coords, EltTy.bits .f32 = 32 ∨ (Rect.block (s := S12288x1) S384x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S384x1.size a ≤ S12288x1.size a
  hwx6_4 : ∀ i : grid6.Coords, EltTy.bits .f32 = 32 ∨ (Rect.block (s := S12288x1) S384x1.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S384x12288.size a ≤ S12288x12288.size a
  hwx7_0 : ∀ i : grid7.Coords, EltTy.bits .f32 = 32 ∨ (Rect.block (s := S12288x12288) S384x12288.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S12288x1.size a ≤ S12288x1.size a
  hwx7_1 : ∀ i : grid7.Coords, EltTy.bits .f32 = 32 ∨ (Rect.block (s := S12288x1) S12288x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S384x1.size a ≤ S12288x1.size a
  hwx7_2 : ∀ i : grid7.Coords, EltTy.bits .f32 = 32 ∨ (Rect.block (s := S12288x1) S384x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S384x1.size a ≤ S12288x1.size a
  hwx7_4 : ∀ i : grid7.Coords, EltTy.bits .f32 = 32 ∨ (Rect.block (s := S12288x1) S384x1.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S384x12288.size a ≤ S12288x12288.size a
  hwx8_0 : ∀ i : grid8.Coords, EltTy.bits .f32 = 32 ∨ (Rect.block (s := S12288x12288) S384x12288.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S12288x1.size a ≤ S12288x1.size a
  hwx8_1 : ∀ i : grid8.Coords, EltTy.bits .f32 = 32 ∨ (Rect.block (s := S12288x1) S12288x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S384x1.size a ≤ S12288x1.size a
  hwx8_2 : ∀ i : grid8.Coords, EltTy.bits .f32 = 32 ∨ (Rect.block (s := S12288x1) S384x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S384x1.size a ≤ S12288x1.size a
  hwx8_4 : ∀ i : grid8.Coords, EltTy.bits .f32 = 32 ∨ (Rect.block (s := S12288x1) S384x1.size (cc8_transform_4 i) (hinb8_4 i)).WholeWords (EltTy.packing .f32)

variable [Facts₀]

def dot_S384x12288_S12288x1_S384x1_1_0_0_1_n_n : DotDims S384x12288 S12288x1 S384x1 where
  lhsContracting := [1]
  rhsContracting := [0]
  lhsNonContracting := [0]
  rhsNonContracting := [1]
  lhsBatch := []
  rhsBatch := []
  wf := dot_S384x12288_S12288x1_S384x1_1_0_0_1_n_n_wf

abbrev win0_0 : Pipeline.Window sig grid0 :=
  Pipeline.Window.ofSpec (Memref.whole main_arg1) S384x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S12288x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S384x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S384x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S384x12288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S12288x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S384x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S384x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S384x12288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S12288x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S384x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S384x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S384x12288.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S12288x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S384x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S384x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S384x12288.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S12288x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S384x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v13) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v14) S384x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_arg1) S384x12288.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S12288x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg0) S384x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v16) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v17) S384x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_arg1) S384x12288.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v17) S12288x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg0) S384x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v19) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v20) S384x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_arg1) S384x12288.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v20) S12288x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg0) S384x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v22) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v23) S384x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_arg1) S384x12288.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v23) S12288x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg0) S384x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v25) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v26) S384x1.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S12288x1 : Shape := ⟨2, ![12288, 1]⟩
abbrev S12288x12288 : Shape := ⟨2, ![12288, 12288]⟩
abbrev S9x1x1 : Shape := ⟨3, ![9, 1, 1]⟩
abbrev S1x1x1 : Shape := ⟨3, ![1, 1, 1]⟩
abbrev S1x1 : Shape := ⟨2, ![1, 1]⟩
abbrev S_ : Shape := ⟨0, ![]⟩
abbrev S12288 : Shape := ⟨1, ![12288]⟩

abbrev nBuf : Space → Nat
  | .hbm => 145
  | .vmem => 0
  | .smem => 0
  | _ => 0

abbrev hbmTy0_0 (i : Nat) : BufTy := match i % 128 with
  | 0 => ⟨S12288x1, .f32⟩
  | 1 => ⟨S12288x12288, .f32⟩
  | 2 => ⟨S9x1x1, .f32⟩
  | 3 => ⟨S1x1x1, .f32⟩
  | 4 => ⟨S1x1, .f32⟩
  | 5 => ⟨S12288x1, .f32⟩
  | 6 => ⟨S_, .f32⟩
  | 7 => ⟨S12288x1, .f32⟩
  | 8 => ⟨S12288x1, .f32⟩
  | 9 => ⟨S_, .f32⟩
  | 10 => ⟨S12288x1, .f32⟩
  | 11 => ⟨S12288x1, .f32⟩
  | 12 => ⟨S12288x1, .f32⟩
  | 13 => ⟨S12288x1, .f32⟩
  | 14 => ⟨S1x1x1, .f32⟩
  | 15 => ⟨S1x1, .f32⟩
  | 16 => ⟨S12288x1, .f32⟩
  | 17 => ⟨S_, .f32⟩
  | 18 => ⟨S12288x1, .f32⟩
  | 19 => ⟨S12288x1, .f32⟩
  | 20 => ⟨S_, .f32⟩
  | 21 => ⟨S12288x1, .f32⟩
  | 22 => ⟨S12288x1, .f32⟩
  | 23 => ⟨S12288x1, .f32⟩
  | 24 => ⟨S12288x1, .f32⟩
  | 25 => ⟨S_, .f32⟩
  | 26 => ⟨S12288x1, .f32⟩
  | 27 => ⟨S12288x1, .i1⟩
  | 28 => ⟨S_, .f32⟩
  | 29 => ⟨S12288x1, .f32⟩
  | 30 => ⟨S12288x1, .f32⟩
  | 31 => ⟨S12288x1, .f32⟩
  | 32 => ⟨S1x1x1, .f32⟩
  | 33 => ⟨S1x1, .f32⟩
  | 34 => ⟨S12288x1, .f32⟩
  | 35 => ⟨S_, .f32⟩
  | 36 => ⟨S12288x1, .f32⟩
  | 37 => ⟨S12288x1, .f32⟩
  | 38 => ⟨S_, .f32⟩
  | 39 => ⟨S12288x1, .f32⟩
  | 40 => ⟨S12288x1, .f32⟩
  | 41 => ⟨S12288x1, .f32⟩
  | 42 => ⟨S12288x1, .f32⟩
  | 43 => ⟨S_, .f32⟩
  | 44 => ⟨S12288x1, .f32⟩
  | 45 => ⟨S12288x1, .f32⟩
  | 46 => ⟨S1x1x1, .f32⟩
  | 47 => ⟨S1x1, .f32⟩
  | 48 => ⟨S12288x1, .f32⟩
  | 49 => ⟨S_, .f32⟩
  | 50 => ⟨S12288x1, .f32⟩
  | 51 => ⟨S12288x1, .f32⟩
  | 52 => ⟨S_, .f32⟩
  | 53 => ⟨S12288x1, .f32⟩
  | 54 => ⟨S12288x1, .f32⟩
  | 55 => ⟨S12288x1, .f32⟩
  | 56 => ⟨S12288x1, .f32⟩
  | 57 => ⟨S_, .f32⟩
  | 58 => ⟨S12288x1, .f32⟩
  | 59 => ⟨S12288x1, .f32⟩
  | 60 => ⟨S1x1x1, .f32⟩
  | 61 => ⟨S1x1, .f32⟩
  | 62 => ⟨S12288x1, .f32⟩
  | 63 => ⟨S_, .f32⟩
  | 64 => ⟨S12288x1, .f32⟩
  | 65 => ⟨S12288x1, .f32⟩
  | 66 => ⟨S_, .f32⟩
  | 67 => ⟨S12288x1, .f32⟩
  | 68 => ⟨S12288x1, .f32⟩
  | 69 => ⟨S12288x1, .f32⟩
  | 70 => ⟨S12288x1, .f32⟩
  | 71 => ⟨S12288x1, .f32⟩
  | 72 => ⟨S12288x1, .f32⟩
  | 73 => ⟨S_, .f32⟩
  | 74 => ⟨S12288x1, .f32⟩
  | 75 => ⟨S12288x1, .f32⟩
  | 76 => ⟨S_, .f32⟩
  | 77 => ⟨S12288x1, .f32⟩
  | 78 => ⟨S12288x1, .f32⟩
  | 79 => ⟨S1x1x1, .f32⟩
  | 80 => ⟨S1x1, .f32⟩
  | 81 => ⟨S12288x1, .f32⟩
  | 82 => ⟨S_, .f32⟩
  | 83 => ⟨S12288x1, .f32⟩
  | 84 => ⟨S12288x1, .f32⟩
  | 85 => ⟨S_, .f32⟩
  | 86 => ⟨S12288x1, .f32⟩
  | 87 => ⟨S12288x1, .f32⟩
  | 88 => ⟨S12288x1, .f32⟩
  | 89 => ⟨S12288x1, .f32⟩
  | 90 => ⟨S_, .f32⟩
  | 91 => ⟨S12288x1, .f32⟩
  | 92 => ⟨S12288x1, .f32⟩
  | 93 => ⟨S1x1x1, .f32⟩
  | 94 => ⟨S1x1, .f32⟩
  | 95 => ⟨S12288x1, .f32⟩
  | 96 => ⟨S_, .f32⟩
  | 97 => ⟨S12288x1, .f32⟩
  | 98 => ⟨S12288x1, .f32⟩
  | 99 => ⟨S_, .f32⟩
  | 100 => ⟨S12288x1, .f32⟩
  | 101 => ⟨S12288x1, .f32⟩
  | 102 => ⟨S12288x1, .f32⟩
  | 103 => ⟨S12288x1, .f32⟩
  | 104 => ⟨S_, .f32⟩
  | 105 => ⟨S12288x1, .f32⟩
  | 106 => ⟨S12288x1, .f32⟩
  | 107 => ⟨S1x1x1, .f32⟩
  | 108 => ⟨S1x1, .f32⟩
  | 109 => ⟨S12288x1, .f32⟩
  | 110 => ⟨S_, .f32⟩
  | 111 => ⟨S12288x1, .f32⟩
  | 112 => ⟨S12288x1, .f32⟩
  | 113 => ⟨S_, .f32⟩
  | 114 => ⟨S12288x1, .f32⟩
  | 115 => ⟨S12288x1, .f32⟩
  | 116 => ⟨S12288x1, .f32⟩
  | 117 => ⟨S12288x1, .f32⟩
  | 118 => ⟨S_, .f32⟩
  | 119 => ⟨S12288x1, .f32⟩
  | 120 => ⟨S12288x1, .f32⟩
  | 121 => ⟨S1x1x1, .f32⟩
  | 122 => ⟨S1x1, .f32⟩
  | 123 => ⟨S12288x1, .f32⟩
  | 124 => ⟨S_, .f32⟩
  | 125 => ⟨S12288x1, .f32⟩
  | 126 => ⟨S12288x1, .f32⟩
  | 127 => ⟨S_, .f32⟩
  | _ => ⟨S12288x1, .f32⟩

abbrev hbmTy0_1 (i : Nat) : BufTy := match i % 128 with
  | 0 => ⟨S12288x1, .f32⟩
  | 1 => ⟨S12288x1, .f32⟩
  | 2 => ⟨S12288x1, .f32⟩
  | 3 => ⟨S12288x1, .f32⟩
  | 4 => ⟨S12288x1, .f32⟩
  | 5 => ⟨S12288x1, .f32⟩
  | 6 => ⟨S_, .f32⟩
  | 7 => ⟨S12288x1, .f32⟩
  | 8 => ⟨S12288x1, .f32⟩
  | 9 => ⟨S_, .f32⟩
  | 10 => ⟨S12288x1, .f32⟩
  | 11 => ⟨S12288x1, .f32⟩
  | 12 => ⟨S_, .f32⟩
  | 13 => ⟨S12288x1, .f32⟩
  | 14 => ⟨S12288x1, .f32⟩
  | 15 => ⟨S12288, .f32⟩
  | 16 => ⟨S12288, .i32⟩
  | _ => ⟨S12288x1, .f32⟩

abbrev hbmTy (i : Nat) : BufTy := match i / 128 with
  | 0 => hbmTy0_0 i
  | 1 => hbmTy0_1 i
  | _ => ⟨S12288x1, .f32⟩

abbrev bufTy : (tb : Table) → Fin (tcTables nBuf tb) → BufTy
  | .hbm, ⟨i, _⟩ => hbmTy i
  | _, _ => ⟨S12288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call3_cst : Ref sig .tc := ⟨.hbm, 90, rfl⟩
abbrev main_call3_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call4_cst : Ref sig .tc := ⟨.hbm, 104, rfl⟩
abbrev main_call4_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call5_cst : Ref sig .tc := ⟨.hbm, 118, rfl⟩
abbrev main_call5_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]

class Facts₀ : Prop where
  slices_S9x1x1_S1x1x1_0_0_0 : S9x1x1.Slices ![0, 0, 0] S1x1x1
  shapeCasts_S1x1x1_S1x1 : S1x1x1.ShapeCasts S1x1
  bcast_S_S12288x1 : S_.BroadcastsInDim S12288x1 (![] : Fin 0 → Fin S12288x1.rank)
  slices_S9x1x1_S1x1x1_1_0_0 : S9x1x1.Slices ![1, 0, 0] S1x1x1
  slices_S9x1x1_S1x1x1_2_0_0 : S9x1x1.Slices ![2, 0, 0] S1x1x1
  slices_S9x1x1_S1x1x1_3_0_0 : S9x1x1.Slices ![3, 0, 0] S1x1x1
  slices_S9x1x1_S1x1x1_4_0_0 : S9x1x1.Slices ![4, 0, 0] S1x1x1
  slices_S9x1x1_S1x1x1_5_0_0 : S9x1x1.Slices ![5, 0, 0] S1x1x1
  slices_S9x1x1_S1x1x1_6_0_0 : S9x1x1.Slices ![6, 0, 0] S1x1x1
  slices_S9x1x1_S1x1x1_7_0_0 : S9x1x1.Slices ![7, 0, 0] S1x1x1
  slices_S9x1x1_S1x1x1_8_0_0 : S9x1x1.Slices ![8, 0, 0] S1x1x1
  shapeCasts_S12288x1_S12288 : S12288x1.ShapeCasts S12288
  dot_S12288x12288_S12288x1_S12288x1_1_0_0_1_n_n_wf : DotDims.WF S12288x12288 S12288x1 S12288x1 [1] [0] [0] [1] [] []
  dot_S12288x1_S1x1_S12288x1_1_0_0_1_n_n_wf : DotDims.WF S12288x1 S1x1 S12288x1 [1] [0] [0] [1] [] []

variable [Facts₀]

def dot_S12288x12288_S12288x1_S12288x1_1_0_0_1_n_n : DotDims S12288x12288 S12288x1 S12288x1 where
  lhsContracting := [1]
  rhsContracting := [0]
  lhsNonContracting := [0]
  rhsNonContracting := [1]
  lhsBatch := []
  rhsBatch := []
  wf := dot_S12288x12288_S12288x1_S12288x1_1_0_0_1_n_n_wf
def dot_S12288x1_S1x1_S12288x1_1_0_0_1_n_n : DotDims S12288x1 S1x1 S12288x1 where
  lhsContracting := [1]
  rhsContracting := [0]
  lhsNonContracting := [0]
  rhsNonContracting := [1]
  lhsBatch := []
  rhsBatch := []
  wf := dot_S12288x1_S1x1_S12288x1_1_0_0_1_n_n_wf

class Facts : Prop extends Facts₀ where

variable [Facts]
-- ==== Proof.KI.Body.lean ====
import proofs.«156734_j4389456576945_1_alg».proof.Proof.Gen.KernelIdeal.Skeleton
import Idealize.ShloMosaic.Lib.Pipeline.FrameBody
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rMat : Rect S384x12288 := Rect.unit (s := S384x12288) ![0, 0] S384x12288.size inb_S384x12288_S384x12288_0_0
abbrev rCol : Rect S12288x1 := Rect.unit (s := S12288x1) ![0, 0] S12288x1.size inb_S12288x1_S12288x1_0_0
abbrev rRows : Rect S384x1 := Rect.unit (s := S384x1) ![0, 0] S384x1.size inb_S384x1_S384x1_0_0
abbrev rOne : Rect S1x1 := Rect.unit (s := S1x1) ![0, 0] S1x1.size inb_S1x1_S1x1_0_0

variable (f : Vec F S384x12288 .f32 → Vec F S12288x1 .f32 → Vec F S384x1 .f32 → Vec F S1x1 .f32 → Vec F S384x1 .f32)

/-- The one shape of the nine launch bodies: four whole-buffer loads, a load of the output buffer that nothing reads, and
    one whole-buffer store of `f` of the four loaded values. -/
def skel (a1 : Memref sig .tc .vmem S384x12288 .f32) (a2 : Memref sig .tc .vmem S12288x1 .f32) (a3 : Memref sig .tc .vmem S384x1 .f32)
    (a4 : Memref sig .tc .vmem S1x1 .f32) (a5 : Memref sig .tc .vmem S384x1 .f32) : Prog (TpuEff nD τ sig (Elt F) Λ₀ .tc) PUnit := do
  let v0 : Vec F S384x12288 .f32 ← Prog.lift (.load a1 rMat.toLoadRect (View.loadsAt_vmem h_S384x12288))
  let v1 : Vec F S12288x1 .f32 ← Prog.lift (.load a2 rCol.toLoadRect (View.loadsAt_vmem h_S12288x1))
  let v2 : Vec F S384x1 .f32 ← Prog.lift (.load a3 rRows.toLoadRect (View.loadsAt_vmem h_S384x1))
  let v3 : Vec F S1x1 .f32 ← Prog.lift (.load a4 rOne.toLoadRect (View.loadsAt_vmem h_S1x1))
  let _ : Vec F S384x1 .f32 ← Prog.lift (.load a5 rRows.toLoadRect (View.loadsAt_vmem h_S384x1))
  Prog.lift (.store a5 rRows (f v0 v1 v2 v3) Finset.univ (View.stores_vmem_bits_univ h_S384x1 rfl) (.inl rfl))
  pure ⟨⟩

/-- What that store leaves in the output buffer, from the four inputs' contents. -/
def out (x0 : Vec F S384x12288 .f32) (x1 : Vec F S12288x1 .f32) (x2 : Vec F S384x1 .f32) (x3 : Vec F S1x1 .f32) : Vec F S384x1 .f32 :=
  View.canon [⟨rRows, f (View.ld x0 rMat) (View.ld x1 rCol) (View.ld x2 rRows) (View.ld x3 rOne)⟩]

theorem hz : (![0, 0] : Fin 2 → Nat) = fun _ => 0 := funext fun a => by fin_cases a <;> rfl

/-- Every rectangle is its whole buffer, so a load reads the contents and the one store leaves its value. -/
theorem out_eq (x0 : Vec F S384x12288 .f32) (x1 : Vec F S12288x1 .f32) (x2 : Vec F S384x1 .f32) (x3 : Vec F S1x1 .f32) :
    out f x0 x1 x2 x3 = f x0 x1 x2 x3 := by
  unfold out
  rw [View.canon_unit_zero hz, View.ld_unit_zero (S := S384x12288) hz, View.ld_unit_zero (S := S12288x1) hz,
    View.ld_unit_zero (S := S384x1) hz, View.ld_unit_zero (S := S1x1) hz]

/-- A program that is `skel f`, handed each input buffer at contents `g d` known to be `b` whatever `d` and the output
    buffer at anything, keeps the inputs, leaves the output at `out f` of them and passes `Φ ∗ O` through; `e` lets
    the caller spell the five final contents its own way. -/
theorem sound {p : Prog (TpuEff nD τ sig (Elt F) Λ₀ .tc) PUnit} {c : Dev nD} {E : Set ℕ}
    {a1 : Memref sig .tc .vmem S384x12288 .f32} {a2 : Memref sig .tc .vmem S12288x1 .f32} {a3 : Memref sig .tc .vmem S384x1 .f32}
    {a4 : Memref sig .tc .vmem S1x1 .f32} {a5 : Memref sig .tc .vmem S384x1 .f32} (hp : p = skel f a1 a2 a3 a4 a5)
    {Φ O : sProp 𝕄} {D0 D1 D2 D3 D4 : Type} {g0 : D0 → Vec F S384x12288 .f32} {g1 : D1 → Vec F S12288x1 .f32}
    {g2 : D2 → Vec F S384x1 .f32} {g3 : D3 → Vec F S1x1 .f32} {g4 : D4 → Vec F S384x1 .f32}
    {b0 : Vec F S384x12288 .f32} {b1 : Vec F S12288x1 .f32} {b2 : Vec F S384x1 .f32} {b3 : Vec F S1x1 .f32}
    (h : (∀ d, g0 d = b0) ∧ (∀ d, g1 d = b1) ∧ (∀ d, g2 d = b2) ∧ (∀ d, g3 d = b3))
    {A0 : Vec F S384x12288 .f32} {A1 : Vec F S12288x1 .f32} {A2 : Vec F S384x1 .f32} {A3 : Vec F S1x1 .f32} {A4 : Vec F S384x1 .f32}
    (e : A0 = b0 ∧ A1 = b1 ∧ A2 = b2 ∧ A3 = b3 ∧ A4 = out f b0 b1 b2 b3) :
    iprop(Φ ∗ O ∗ (∃ d, owns (c : Thread nD τ) a1 fullShare (g0 d)) ∗ (∃ d, owns (c : Thread nD τ) a2 fullShare (g1 d))
        ∗ (∃ d, owns (c : Thread nD τ) a3 fullShare (g2 d)) ∗ (∃ d, owns (c : Thread nD τ) a4 fullShare (g3 d))
        ∗ (∃ d, owns (c : Thread nD τ) a5 fullShare (g4 d)))
      ⊢ wp frame (wpE (defs₀ (F := F)) Variants.none c none) E p fun _ =>
          iprop(Φ ∗ O ∗ owns (c : Thread nD τ) a1 fullShare A0 ∗ owns (c : Thread nD τ) a2 fullShare A1
            ∗ owns (c : Thread nD τ) a3 fullShare A2 ∗ owns (c : Thread nD τ) a4 fullShare A3 ∗ owns (c : Thread nD τ) a5 fullShare A4) := by
  obtain ⟨rfl, rfl, rfl, rfl, rfl⟩ := e
  subst hp
  simp only [h.1, h.2.1, h.2.2.1, h.2.2.2]
  unfold skel owns
  iintro ⟨HΦ, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ fun y => ⟨_, List.mem_singleton_self _, View.mem_set_unit_zero hz inb_S384x1_S384x1_0_0 y⟩

end Cert.KernelIdeal.Body

end
-- ==== Proof.KI.Reg0.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer0

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the launch finds them; after the body at point `t` each input buffer still at its block and the output
    buffer at the stored value of the four blocks. -/
noncomputable def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => Body.out k0_pay1 (blk V c 0 t) (blk V c 1 t) (blk V c 2 t) (blk V c 3 t)
  Φ _ := Pipeline.ΦA spec0 c
  q w := match w with
    | ⟨1, _⟩ => fullShare.left
    | ⟨2, _⟩ => fullShare.right
    | _ => fullShare
  owed _ := 0

theorem dat_A (c : Dev nD) (w : Fin cfg0.W) : (dat V c).A w = V c (Pipeline.arrRef spec0 w) := by
  dsimp only [dat]

theorem after4 (c : Dev nD) (t : Fin cfg0.N) :
    (dat V c).after 4 t = Body.out k0_pay1 (blk V c 0 t) (blk V c 1 t) (blk V c 2 t) (blk V c 3 t) := by dsimp only [dat]

/-- The body leaves every input block in place, so what it finds in an input buffer is the block again. -/
theorem found (c : Dev nD) (t : Fin cfg0.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg0.N) :
    bodyAt0 (F := F) t = Body.skel k0_pay1 (st0_0 t) (st0_1 t) (st0_2 t) (st0_3 t) (st0_4 t) := by
  unfold bodyAt0; rw [cc0__gcn_layer_kernel_eq_skeleton]; rfl

/-- The pipeline's obligation on the body, at every point. -/
theorem body_obligation (c : Dev nD) : BodyObligation (dat (F := F) V c) (defs₀ (F := F)) Variants.none () Set.univ := fun t => by
  rw [bigSep_W0, bigSep_W0]
  exact Body.sound k0_pay1 (body_eq t) (found V c t) (by dsimp only [dat]; exact ⟨rfl, rfl, rfl, rfl, rfl⟩)

end Cert.KernelIdeal.Layer0

end
-- ==== Proof.KI.Reg1.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer1

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The arrays as the launch finds them; after the body at point `t` each input buffer still at its block and the output
    buffer at the stored value of the four blocks. -/
noncomputable def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => Body.out k1_pay1 (blk V c 0 t) (blk V c 1 t) (blk V c 2 t) (blk V c 3 t)
  Φ _ := Pipeline.ΦA spec1 c
  q _ := fullShare
  owed _ := 0

theorem dat_A (c : Dev nD) (w : Fin cfg1.W) : (dat V c).A w = V c (Pipeline.arrRef spec1 w) := by
  dsimp only [dat]

theorem after4 (c : Dev nD) (t : Fin cfg1.N) :
    (dat V c).after 4 t = Body.out k1_pay1 (blk V c 0 t) (blk V c 1 t) (blk V c 2 t) (blk V c 3 t) := by dsimp only [dat]

/-- The body leaves every input block in place, so what it finds in an input buffer is the block again. -/
theorem found (c : Dev nD) (t : Fin cfg1.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg1.N) :
    bodyAt1 (F := F) t = Body.skel k1_pay1 (st1_0 t) (st1_1 t) (st1_2 t) (st1_3 t) (st1_4 t) := by
  unfold bodyAt1; rw [cc1__gcn_layer_kernel_eq_skeleton]; rfl

/-- The pipeline's obligation on the body, at every point. -/
theorem body_obligation (c : Dev nD) : BodyObligation (dat (F := F) V c) (defs₀ (F := F)) Variants.none () Set.univ := fun t => by
  rw [bigSep_W1, bigSep_W1]
  exact Body.sound k1_pay1 (body_eq t) (found V c t) (by dsimp only [dat]; exact ⟨rfl, rfl, rfl, rfl, rfl⟩)

end Cert.KernelIdeal.Layer1

end
-- ==== Proof.KI.Reg2.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer2

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The arrays as the launch finds them; after the body at point `t` each input buffer still at its block and the output
    buffer at the stored value of the four blocks. -/
noncomputable def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => Body.out k2_pay1 (blk V c 0 t) (blk V c 1 t) (blk V c 2 t) (blk V c 3 t)
  Φ _ := Pipeline.ΦA spec2 c
  q _ := fullShare
  owed _ := 0

theorem dat_A (c : Dev nD) (w : Fin cfg2.W) : (dat V c).A w = V c (Pipeline.arrRef spec2 w) := by
  dsimp only [dat]

theorem after4 (c : Dev nD) (t : Fin cfg2.N) :
    (dat V c).after 4 t = Body.out k2_pay1 (blk V c 0 t) (blk V c 1 t) (blk V c 2 t) (blk V c 3 t) := by dsimp only [dat]

/-- The body leaves every input block in place, so what it finds in an input buffer is the block again. -/
theorem found (c : Dev nD) (t : Fin cfg2.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg2.N) :
    bodyAt2 (F := F) t = Body.skel k2_pay1 (st2_0 t) (st2_1 t) (st2_2 t) (st2_3 t) (st2_4 t) := by
  unfold bodyAt2; rw [cc2__gcn_layer_kernel_eq_skeleton]; rfl

/-- The pipeline's obligation on the body, at every point. -/
theorem body_obligation (c : Dev nD) : BodyObligation (dat (F := F) V c) (defs₀ (F := F)) Variants.none () Set.univ := fun t => by
  rw [bigSep_W2, bigSep_W2]
  exact Body.sound k2_pay1 (body_eq t) (found V c t) (by dsimp only [dat]; exact ⟨rfl, rfl, rfl, rfl, rfl⟩)

end Cert.KernelIdeal.Layer2

end
-- ==== Proof.KI.Reg3.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer3

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The arrays as the launch finds them; after the body at point `t` each input buffer still at its block and the output
    buffer at the stored value of the four blocks. -/
noncomputable def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => Body.out k3_pay1 (blk V c 0 t) (blk V c 1 t) (blk V c 2 t) (blk V c 3 t)
  Φ _ := Pipeline.ΦA spec3 c
  q _ := fullShare
  owed _ := 0

theorem dat_A (c : Dev nD) (w : Fin cfg3.W) : (dat V c).A w = V c (Pipeline.arrRef spec3 w) := by
  dsimp only [dat]

theorem after4 (c : Dev nD) (t : Fin cfg3.N) :
    (dat V c).after 4 t = Body.out k3_pay1 (blk V c 0 t) (blk V c 1 t) (blk V c 2 t) (blk V c 3 t) := by dsimp only [dat]

/-- The body leaves every input block in place, so what it finds in an input buffer is the block again. -/
theorem found (c : Dev nD) (t : Fin cfg3.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg3.N) :
    bodyAt3 (F := F) t = Body.skel k3_pay1 (st3_0 t) (st3_1 t) (st3_2 t) (st3_3 t) (st3_4 t) := by
  unfold bodyAt3; rw [cc3__gcn_layer_kernel_eq_skeleton]; rfl

/-- The pipeline's obligation on the body, at every point. -/
theorem body_obligation (c : Dev nD) : BodyObligation (dat (F := F) V c) (defs₀ (F := F)) Variants.none () Set.univ := fun t => by
  rw [bigSep_W3, bigSep_W3]
  exact Body.sound k3_pay1 (body_eq t) (found V c t) (by dsimp only [dat]; exact ⟨rfl, rfl, rfl, rfl, rfl⟩)

end Cert.KernelIdeal.Layer3

end
-- ==== Proof.KI.Reg4.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer4

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The arrays as the launch finds them; after the body at point `t` each input buffer still at its block and the output
    buffer at the stored value of the four blocks. -/
noncomputable def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => Body.out k4_pay1 (blk V c 0 t) (blk V c 1 t) (blk V c 2 t) (blk V c 3 t)
  Φ _ := Pipeline.ΦA spec4 c
  q _ := fullShare
  owed _ := 0

theorem dat_A (c : Dev nD) (w : Fin cfg4.W) : (dat V c).A w = V c (Pipeline.arrRef spec4 w) := by
  dsimp only [dat]

theorem after4 (c : Dev nD) (t : Fin cfg4.N) :
    (dat V c).after 4 t = Body.out k4_pay1 (blk V c 0 t) (blk V c 1 t) (blk V c 2 t) (blk V c 3 t) := by dsimp only [dat]

/-- The body leaves every input block in place, so what it finds in an input buffer is the block again. -/
theorem found (c : Dev nD) (t : Fin cfg4.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg4.N) :
    bodyAt4 (F := F) t = Body.skel k4_pay1 (st4_0 t) (st4_1 t) (st4_2 t) (st4_3 t) (st4_4 t) := by
  unfold bodyAt4; rw [cc4__gcn_layer_kernel_eq_skeleton]; rfl

/-- The pipeline's obligation on the body, at every point. -/
theorem body_obligation (c : Dev nD) : BodyObligation (dat (F := F) V c) (defs₀ (F := F)) Variants.none () Set.univ := fun t => by
  rw [bigSep_W4, bigSep_W4]
  exact Body.sound k4_pay1 (body_eq t) (found V c t) (by dsimp only [dat]; exact ⟨rfl, rfl, rfl, rfl, rfl⟩)

end Cert.KernelIdeal.Layer4

end
-- ==== Proof.KI.Reg5.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer5

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The arrays as the launch finds them; after the body at point `t` each input buffer still at its block and the output
    buffer at the stored value of the four blocks. -/
noncomputable def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => Body.out k5_pay1 (blk V c 0 t) (blk V c 1 t) (blk V c 2 t) (blk V c 3 t)
  Φ _ := Pipeline.ΦA spec5 c
  q _ := fullShare
  owed _ := 0

theorem dat_A (c : Dev nD) (w : Fin cfg5.W) : (dat V c).A w = V c (Pipeline.arrRef spec5 w) := by
  dsimp only [dat]

theorem after4 (c : Dev nD) (t : Fin cfg5.N) :
    (dat V c).after 4 t = Body.out k5_pay1 (blk V c 0 t) (blk V c 1 t) (blk V c 2 t) (blk V c 3 t) := by dsimp only [dat]

/-- The body leaves every input block in place, so what it finds in an input buffer is the block again. -/
theorem found (c : Dev nD) (t : Fin cfg5.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg5.N) :
    bodyAt5 (F := F) t = Body.skel k5_pay1 (st5_0 t) (st5_1 t) (st5_2 t) (st5_3 t) (st5_4 t) := by
  unfold bodyAt5; rw [cc5__gcn_layer_kernel_eq_skeleton]; rfl

/-- The pipeline's obligation on the body, at every point. -/
theorem body_obligation (c : Dev nD) : BodyObligation (dat (F := F) V c) (defs₀ (F := F)) Variants.none () Set.univ := fun t => by
  rw [bigSep_W5, bigSep_W5]
  exact Body.sound k5_pay1 (body_eq t) (found V c t) (by dsimp only [dat]; exact ⟨rfl, rfl, rfl, rfl, rfl⟩)

end Cert.KernelIdeal.Layer5

end
-- ==== Proof.KI.Reg6.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer6

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The arrays as the launch finds them; after the body at point `t` each input buffer still at its block and the output
    buffer at the stored value of the four blocks. -/
noncomputable def dat (c : Dev nD) : Dat τ (Elt F) Unit ℕ (UR sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => blk V c 3 t
    | ⟨4, _⟩ => Body.out k6_pay1 (blk V c 0 t) (blk V c 1 t) (blk V c 2 t) (blk V c 3 t)
  Φ _ := Pipeline.ΦA spec6 c
  q _ := fullShare
  owed _ := 0

theorem dat_A (c : Dev nD) (w : Fin cfg6.W) : (dat V c).A w = V c (Pipeline.arrRef spec6 w) := by
  dsimp only [dat]

theorem after4 (c : Dev nD) (t : Fin cfg6.N) :
    (dat V c).after 4 t = Body.out k6_pay1 (blk V c 0 t) (blk V c 1 t) (blk V c 2 t) (blk V c 3 t) := by dsimp only [dat]

/-- The body leaves every input block in place, so what it finds in an input buffer is the block again. -/
theorem found (c : Dev nD) (t : Fin cfg6.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg6.N) :
    bodyAt6 (F := F) t = Body.skel k6_pay1 (st6_0 t) (st6_1 t) (st6_2 t) (st6_3 t) (st6_4 t) := by
  unfold bodyAt6; rw [cc6__gcn_layer_kernel_eq_skeleton]; rfl

/-- The pipeline's obligation on the body, at every point. -/
theorem body_obligation (c : Dev nD) : BodyObligation (dat (F := F) V c) (defs₀ (F := F)) Variants.none () Set.univ := fun t => by
  rw [bigSep_W6, bigSep_W6]
  exact Body.sound k6_pay1 (body_eq t) (found V c t) (by dsimp only [dat]; exact ⟨rfl, rfl, rfl, rfl, rfl⟩)

end Cert.KernelIdeal.Layer6

end
-- ==== Proof.KI.Reg7.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer7

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The arrays as the launch finds them; after the body at point `t` each input buffer still at its block and the output
    buffer at the stored value of the four blocks. -/
noncomputable def dat (c : Dev nD) : Dat τ (Elt F) Unit ℕ (UR sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => blk V c 3 t
    | ⟨4, _⟩ => Body.out k7_pay1 (blk V c 0 t) (blk V c 1 t) (blk V c 2 t) (blk V c 3 t)
  Φ _ := Pipeline.ΦA spec7 c
  q _ := fullShare
  owed _ := 0

theorem dat_A (c : Dev nD) (w : Fin cfg7.W) : (dat V c).A w = V c (Pipeline.arrRef spec7 w) := by
  dsimp only [dat]

theorem after4 (c : Dev nD) (t : Fin cfg7.N) :
    (dat V c).after 4 t = Body.out k7_pay1 (blk V c 0 t) (blk V c 1 t) (blk V c 2 t) (blk V c 3 t) := by dsimp only [dat]

/-- The body leaves every input block in place, so what it finds in an input buffer is the block again. -/
theorem found (c : Dev nD) (t : Fin cfg7.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg7.N) :
    bodyAt7 (F := F) t = Body.skel k7_pay1 (st7_0 t) (st7_1 t) (st7_2 t) (st7_3 t) (st7_4 t) := by
  unfold bodyAt7; rw [cc7__gcn_layer_kernel_eq_skeleton]; rfl

/-- The pipeline's obligation on the body, at every point. -/
theorem body_obligation (c : Dev nD) : BodyObligation (dat (F := F) V c) (defs₀ (F := F)) Variants.none () Set.univ := fun t => by
  rw [bigSep_W7, bigSep_W7]
  exact Body.sound k7_pay1 (body_eq t) (found V c t) (by dsimp only [dat]; exact ⟨rfl, rfl, rfl, rfl, rfl⟩)

end Cert.KernelIdeal.Layer7

end
-- ==== Proof.KI.Reg8.lean ====
import proofs.«156734_j4389456576945_1_alg».proof.Proof.Gen.KernelIdeal.Launch
import proofs.«156734_j4389456576945_1_alg».proof.Proof.Gen.KernelIdeal.Points
import proofs.«156734_j4389456576945_1_alg».proof.Proof.KI.Body

noncomputable section

namespace Cert.KernelIdeal.Layer8

open Cert.KernelIdeal Cert.KernelIdeal.Gen
open Idealize.ShloMosaic Idealize.ShloMosaic.TcCoe
open Idealize.SL Idealize.SL.RA Idealize.SL.BI Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block at grid point `t`, read off its array as the launch finds it. -/
noncomputable def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The arrays as the launch finds them; after the body at point `t` each input buffer still at its block and the output
    buffer at the stored value of the four blocks. -/
noncomputable def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => blk V c 3 t
    | ⟨4, _⟩ => Body.out k8_pay1 (blk V c 0 t) (blk V c 1 t) (blk V c 2 t) (blk V c 3 t)
  Φ _ := Pipeline.ΦA spec8 c
  q _ := fullShare
  owed _ := 0

theorem dat_A (c : Dev nD) (w : Fin cfg8.W) : (dat V c).A w = V c (Pipeline.arrRef spec8 w) := by
  dsimp only [dat]

theorem after4 (c : Dev nD) (t : Fin cfg8.N) :
    (dat V c).after 4 t = Body.out k8_pay1 (blk V c 0 t) (blk V c 1 t) (blk V c 2 t) (blk V c 3 t) := by dsimp only [dat]

/-- The body leaves every input block in place, so what it finds in an input buffer is the block again. -/
theorem found (c : Dev nD) (t : Fin cfg8.N) :
    (∀ d, (dat V c).before 0 t d = blk V c 0 t) ∧ (∀ d, (dat V c).before 1 t d = blk V c 1 t)
      ∧ (∀ d, (dat V c).before 2 t d = blk V c 2 t) ∧ (∀ d, (dat V c).before 3 t d = blk V c 3 t) := by
  refine ⟨?_, ?_, ?_, ?_⟩ <;>
    exact fun d => ((dat V c).before_in_eq_fetched _ rfl (fun _ => rfl) (fun _ _ _ => rfl) (fun _ => by dsimp only [dat]; rfl) t d).trans
      (by unfold Dat.fetched Dat.blockOf blk; dsimp only [dat]; rfl)

theorem body_eq (t : Fin cfg8.N) :
    bodyAt8 (F := F) t = Body.skel k8_pay1 (st8_0 t) (st8_1 t) (st8_2 t) (st8_3 t) (st8_4 t) := by
  unfold bodyAt8; rw [cc8__gcn_layer_kernel_eq_skeleton]; rfl

/-- The pipeline's obligation on the body, at every point. -/
theorem body_obligation (c : Dev nD) : BodyObligation (dat (F := F) V c) (defs₀ (F := F)) Variants.none () Set.univ := fun t => by
  rw [bigSep_W8, bigSep_W8]
  exact Body.sound k8_pay1 (body_eq t) (found V c t) (by dsimp only [dat]; exact ⟨rfl, rfl, rfl, rfl, rfl⟩)

end Cert.KernelIdeal.Layer8

end
-- ==== Proof.KI.Fold.lean ====
import proofs.«156734_j4389456576945_1_alg».proof.Proof.Gen.KernelIdeal.Regions
import proofs.«156734_j4389456576945_1_alg».proof.Proof.KI.Reg0
import proofs.«156734_j4389456576945_1_alg».proof.Proof.KI.Reg1
import proofs.«156734_j4389456576945_1_alg».proof.Proof.KI.Reg2
import proofs.«156734_j4389456576945_1_alg».proof.Proof.KI.Reg3
import proofs.«156734_j4389456576945_1_alg».proof.Proof.KI.Reg4
import proofs.«156734_j4389456576945_1_alg».proof.Proof.KI.Reg5
import proofs.«156734_j4389456576945_1_alg».proof.Proof.KI.Reg6
import proofs.«156734_j4389456576945_1_alg».proof.Proof.KI.Reg7
import proofs.«156734_j4389456576945_1_alg».proof.Proof.KI.Reg8

noncomputable section

namespace Cert.KernelIdeal.Fold

open Cert.KernelIdeal Cert.KernelIdeal.Gen
open Idealize.ShloMosaic Idealize.ShloMosaic.TcCoe Idealize.SL.Sem
open Idealize.ShloMosaic.Pipeline (Dat)

variable {F : FTy → Type} [FloatOps F]

section
variable {cfg : Pipeline.Cfg sig Λ₀} {c : Dev nD} (dat : Dat τ (Elt F) Unit ℕ (UR sig nD τ) ℕ cfg c)
  (B : Valuation τ sig (Elt F)) (wo : Fin cfg.W)

/-- With the output window's array rewritten to what the run leaves there, every window's array holds what the run leaves: an input window's array is never written. -/
theorem exit_arr (hA : ∀ w, dat.A w = B ((cfg.win w).arr.view.ref : DevRef τ sig))
    (hin : ∀ w, w ≠ wo → (cfg.win w).isOut = false ∧ (cfg.win w).arr.view.ref ≠ (cfg.win wo).arr.view.ref) (w : Fin cfg.W) :
    dat.arrAt w cfg.N
      = (Function.update B ((cfg.win wo).arr.view.ref : DevRef τ sig) (dat.arrAt wo cfg.N) : Valuation τ sig (Elt F))
          ((cfg.win w).arr.view.ref : DevRef τ sig) := by
  by_cases h : w = wo
  · subst h; symm; exact Function.update_self _ _ _
  · refine ((dat.arrAt_in w (hin w h).1 _).trans (hA w)).trans ?_; symm
    exact Function.update_of_ne (StableHlo.devRef_ne_of_ne (hin w h).2) _ _

theorem exit_rest (v : Buf (Elt F) ((c : Thread nD τ).loc (cfg.win wo).arr.view.ref)) (b : Ref sig .tc)
    (hb : b ∉ Finset.univ.image fun w => (cfg.win w).arr.view.ref) :
    (Function.update B ((cfg.win wo).arr.view.ref : DevRef τ sig) v : Valuation τ sig (Elt F)) (b : DevRef τ sig) = B (b : DevRef τ sig) :=
  Function.update_of_ne (StableHlo.devRef_ne_of_ne fun e => hb (Finset.mem_image.mpr ⟨wo, Finset.mem_univ _, e.symm⟩)) _ _

end

variable (m : (ℓ : Loc nD τ sig) → Buf (Elt F) ℓ)

abbrev B0 : Dev nD → Valuation τ sig (Elt F) := fun c b => m (c, b)

abbrev B1 : Dev nD → Valuation τ sig (Elt F) := fun c => StableHlo.after hostOps0 (B0 m c)

abbrev E1 : (c : Dev nD) → (b : Ref sig .tc) → Buf (Elt F) ((c : Thread nD τ).loc b) := fun c b => B1 m c b

theorem B1_keep (c : Dev nD) (r : Ref sig .tc) (h : r ∉ hostOps0_W) : B1 m c (r : DevRef τ sig) = B0 m c (r : DevRef τ sig) :=
  StableHlo.after_of_writes_sub hostOps0 _ hostOps0_writes h

def B2 (c : Dev nD) : Valuation τ sig (Elt F) :=
  Function.update (B1 m c) (main_v2 : DevRef τ sig) ((Layer0.dat (E1 m) c).arrAt 4 cfg0.N)
abbrev E2 : (c : Dev nD) → (b : Ref sig .tc) → Buf (Elt F) ((c : Thread nD τ).loc b) := fun c b => B2 m c b

theorem B2_out (c : Dev nD) : B2 m c (main_v2 : DevRef τ sig) = (Layer0.dat (E1 m) c).arrAt 4 cfg0.N :=
  Function.update_self _ _ _
theorem B2_of_ne (c : Dev nD) (b : Ref sig .tc) (h : b ≠ main_v2) : B2 m c (b : DevRef τ sig) = B1 m c (b : DevRef τ sig) :=
  Function.update_of_ne (StableHlo.devRef_ne_of_ne h) _ _

theorem exit0_arr (c : Dev nD) (w : Fin cfg0.W) :
    (Layer0.dat (E1 m) c).arrAt w cfg0.N = E2 m c (Pipeline.arrRef spec0 w) :=
  exit_arr (Layer0.dat (E1 m) c) (B1 m c) 4 (Layer0.dat_A (E1 m) c) (by decide) w

theorem exit0_rest (c : Dev nD) : ∀ b, b ∉ Finset.univ.image (Pipeline.arrRef spec0) → E2 m c b = E1 m c b :=
  exit_rest (cfg := cfg0) (B1 m c) 4 _

abbrev B3 : Dev nD → Valuation τ sig (Elt F) := fun c => StableHlo.after hostOps1 (B2 m c)

abbrev E3 : (c : Dev nD) → (b : Ref sig .tc) → Buf (Elt F) ((c : Thread nD τ).loc b) := fun c b => B3 m c b

theorem B3_keep (c : Dev nD) (r : Ref sig .tc) (h : r ∉ hostOps1_W) : B3 m c (r : DevRef τ sig) = B2 m c (r : DevRef τ sig) :=
  StableHlo.after_of_writes_sub hostOps1 _ hostOps1_writes h

def B4 (c : Dev nD) : Valuation τ sig (Elt F) :=
  Function.update (B3 m c) (main_v5 : DevRef τ sig) ((Layer1.dat (E3 m) c).arrAt 4 cfg1.N)
abbrev E4 : (c : Dev nD) → (b : Ref sig .tc) → Buf (Elt F) ((c : Thread nD τ).loc b) := fun c b => B4 m c b

theorem B4_out (c : Dev nD) : B4 m c (main_v5 : DevRef τ sig) = (Layer1.dat (E3 m) c).arrAt 4 cfg1.N :=
  Function.update_self _ _ _
theorem B4_of_ne (c : Dev nD) (b : Ref sig .tc) (h : b ≠ main_v5) : B4 m c (b : DevRef τ sig) = B3 m c (b : DevRef τ sig) :=
  Function.update_of_ne (StableHlo.devRef_ne_of_ne h) _ _

theorem exit1_arr (c : Dev nD) (w : Fin cfg1.W) :
    (Layer1.dat (E3 m) c).arrAt w cfg1.N = E4 m c (Pipeline.arrRef spec1 w) :=
  exit_arr (Layer1.dat (E3 m) c) (B3 m c) 4 (Layer1.dat_A (E3 m) c) (by decide) w

theorem exit1_rest (c : Dev nD) : ∀ b, b ∉ Finset.univ.image (Pipeline.arrRef spec1) → E4 m c b = E3 m c b :=
  exit_rest (cfg := cfg1) (B3 m c) 4 _

abbrev B5 : Dev nD → Valuation τ sig (Elt F) := fun c => StableHlo.after hostOps2 (B4 m c)

abbrev E5 : (c : Dev nD) → (b : Ref sig .tc) → Buf (Elt F) ((c : Thread nD τ).loc b) := fun c b => B5 m c b

theorem B5_keep (c : Dev nD) (r : Ref sig .tc) (h : r ∉ hostOps2_W) : B5 m c (r : DevRef τ sig) = B4 m c (r : DevRef τ sig) :=
  StableHlo.after_of_writes_sub hostOps2 _ hostOps2_writes h

def B6 (c : Dev nD) : Valuation τ sig (Elt F) :=
  Function.update (B5 m c) (main_v8 : DevRef τ sig) ((Layer2.dat (E5 m) c).arrAt 4 cfg2.N)
abbrev E6 : (c : Dev nD) → (b : Ref sig .tc) → Buf (Elt F) ((c : Thread nD τ).loc b) := fun c b => B6 m c b

theorem B6_out (c : Dev nD) : B6 m c (main_v8 : DevRef τ sig) = (Layer2.dat (E5 m) c).arrAt 4 cfg2.N :=
  Function.update_self _ _ _
theorem B6_of_ne (c : Dev nD) (b : Ref sig .tc) (h : b ≠ main_v8) : B6 m c (b : DevRef τ sig) = B5 m c (b : DevRef τ sig) :=
  Function.update_of_ne (StableHlo.devRef_ne_of_ne h) _ _

theorem exit2_arr (c : Dev nD) (w : Fin cfg2.W) :
    (Layer2.dat (E5 m) c).arrAt w cfg2.N = E6 m c (Pipeline.arrRef spec2 w) :=
  exit_arr (Layer2.dat (E5 m) c) (B5 m c) 4 (Layer2.dat_A (E5 m) c) (by decide) w

theorem exit2_rest (c : Dev nD) : ∀ b, b ∉ Finset.univ.image (Pipeline.arrRef spec2) → E6 m c b = E5 m c b :=
  exit_rest (cfg := cfg2) (B5 m c) 4 _

abbrev B7 : Dev nD → Valuation τ sig (Elt F) := fun c => StableHlo.after hostOps3 (B6 m c)

abbrev E7 : (c : Dev nD) → (b : Ref sig .tc) → Buf (Elt F) ((c : Thread nD τ).loc b) := fun c b => B7 m c b

theorem B7_keep (c : Dev nD) (r : Ref sig .tc) (h : r ∉ hostOps3_W) : B7 m c (r : DevRef τ sig) = B6 m c (r : DevRef τ sig) :=
  StableHlo.after_of_writes_sub hostOps3 _ hostOps3_writes h

def B8 (c : Dev nD) : Valuation τ sig (Elt F) :=
  Function.update (B7 m c) (main_v11 : DevRef τ sig) ((Layer3.dat (E7 m) c).arrAt 4 cfg3.N)
abbrev E8 : (c : Dev nD) → (b : Ref sig .tc) → Buf (Elt F) ((c : Thread nD τ).loc b) := fun c b => B8 m c b

theorem B8_out (c : Dev nD) : B8 m c (main_v11 : DevRef τ sig) = (Layer3.dat (E7 m) c).arrAt 4 cfg3.N :=
  Function.update_self _ _ _
theorem B8_of_ne (c : Dev nD) (b : Ref sig .tc) (h : b ≠ main_v11) : B8 m c (b : DevRef τ sig) = B7 m c (b : DevRef τ sig) :=
  Function.update_of_ne (StableHlo.devRef_ne_of_ne h) _ _

theorem exit3_arr (c : Dev nD) (w : Fin cfg3.W) :
    (Layer3.dat (E7 m) c).arrAt w cfg3.N = E8 m c (Pipeline.arrRef spec3 w) :=
  exit_arr (Layer3.dat (E7 m) c) (B7 m c) 4 (Layer3.dat_A (E7 m) c) (by decide) w

theorem exit3_rest (c : Dev nD) : ∀ b, b ∉ Finset.univ.image (Pipeline.arrRef spec3) → E8 m c b = E7 m c b :=
  exit_rest (cfg := cfg3) (B7 m c) 4 _

abbrev B9 : Dev nD → Valuation τ sig (Elt F) := fun c => StableHlo.after hostOps4 (B8 m c)

abbrev E9 : (c : Dev nD) → (b : Ref sig .tc) → Buf (Elt F) ((c : Thread nD τ).loc b) := fun c b => B9 m c b

theorem B9_keep (c : Dev nD) (r : Ref sig .tc) (h : r ∉ hostOps4_W) : B9 m c (r : DevRef τ sig) = B8 m c (r : DevRef τ sig) :=
  StableHlo.after_of_writes_sub hostOps4 _ hostOps4_writes h

def B10 (c : Dev nD) : Valuation τ sig (Elt F) :=
  Function.update (B9 m c) (main_v14 : DevRef τ sig) ((Layer4.dat (E9 m) c).arrAt 4 cfg4.N)
abbrev E10 : (c : Dev nD) → (b : Ref sig .tc) → Buf (Elt F) ((c : Thread nD τ).loc b) := fun c b => B10 m c b

theorem B10_out (c : Dev nD) : B10 m c (main_v14 : DevRef τ sig) = (Layer4.dat (E9 m) c).arrAt 4 cfg4.N :=
  Function.update_self _ _ _
theorem B10_of_ne (c : Dev nD) (b : Ref sig .tc) (h : b ≠ main_v14) : B10 m c (b : DevRef τ sig) = B9 m c (b : DevRef τ sig) :=
  Function.update_of_ne (StableHlo.devRef_ne_of_ne h) _ _

theorem exit4_arr (c : Dev nD) (w : Fin cfg4.W) :
    (Layer4.dat (E9 m) c).arrAt w cfg4.N = E10 m c (Pipeline.arrRef spec4 w) :=
  exit_arr (Layer4.dat (E9 m) c) (B9 m c) 4 (Layer4.dat_A (E9 m) c) (by decide) w

theorem exit4_rest (c : Dev nD) : ∀ b, b ∉ Finset.univ.image (Pipeline.arrRef spec4) → E10 m c b = E9 m c b :=
  exit_rest (cfg := cfg4) (B9 m c) 4 _

abbrev B11 : Dev nD → Valuation τ sig (Elt F) := fun c => StableHlo.after hostOps5 (B10 m c)

abbrev E11 : (c : Dev nD) → (b : Ref sig .tc) → Buf (Elt F) ((c : Thread nD τ).loc b) := fun c b => B11 m c b

theorem B11_keep (c : Dev nD) (r : Ref sig .tc) (h : r ∉ hostOps5_W) : B11 m c (r : DevRef τ sig) = B10 m c (r : DevRef τ sig) :=
  StableHlo.after_of_writes_sub hostOps5 _ hostOps5_writes h

def B12 (c : Dev nD) : Valuation τ sig (Elt F) :=
  Function.update (B11 m c) (main_v17 : DevRef τ sig) ((Layer5.dat (E11 m) c).arrAt 4 cfg5.N)
abbrev E12 : (c : Dev nD) → (b : Ref sig .tc) → Buf (Elt F) ((c : Thread nD τ).loc b) := fun c b => B12 m c b

theorem B12_out (c : Dev nD) : B12 m c (main_v17 : DevRef τ sig) = (Layer5.dat (E11 m) c).arrAt 4 cfg5.N :=
  Function.update_self _ _ _
theorem B12_of_ne (c : Dev nD) (b : Ref sig .tc) (h : b ≠ main_v17) : B12 m c (b : DevRef τ sig) = B11 m c (b : DevRef τ sig) :=
  Function.update_of_ne (StableHlo.devRef_ne_of_ne h) _ _

theorem exit5_arr (c : Dev nD) (w : Fin cfg5.W) :
    (Layer5.dat (E11 m) c).arrAt w cfg5.N = E12 m c (Pipeline.arrRef spec5 w) :=
  exit_arr (Layer5.dat (E11 m) c) (B11 m c) 4 (Layer5.dat_A (E11 m) c) (by decide) w

theorem exit5_rest (c : Dev nD) : ∀ b, b ∉ Finset.univ.image (Pipeline.arrRef spec5) → E12 m c b = E11 m c b :=
  exit_rest (cfg := cfg5) (B11 m c) 4 _

abbrev B13 : Dev nD → Valuation τ sig (Elt F) := fun c => StableHlo.after hostOps6 (B12 m c)

abbrev E13 : (c : Dev nD) → (b : Ref sig .tc) → Buf (Elt F) ((c : Thread nD τ).loc b) := fun c b => B13 m c b

theorem B13_keep (c : Dev nD) (r : Ref sig .tc) (h : r ∉ hostOps6_W) : B13 m c (r : DevRef τ sig) = B12 m c (r : DevRef τ sig) :=
  StableHlo.after_of_writes_sub hostOps6 _ hostOps6_writes h

def B14 (c : Dev nD) : Valuation τ sig (Elt F) :=
  Function.update (B13 m c) (main_v20 : DevRef τ sig) ((Layer6.dat (E13 m) c).arrAt 4 cfg6.N)
abbrev E14 : (c : Dev nD) → (b : Ref sig .tc) → Buf (Elt F) ((c : Thread nD τ).loc b) := fun c b => B14 m c b

theorem B14_out (c : Dev nD) : B14 m c (main_v20 : DevRef τ sig) = (Layer6.dat (E13 m) c).arrAt 4 cfg6.N :=
  Function.update_self _ _ _
theorem B14_of_ne (c : Dev nD) (b : Ref sig .tc) (h : b ≠ main_v20) : B14 m c (b : DevRef τ sig) = B13 m c (b : DevRef τ sig) :=
  Function.update_of_ne (StableHlo.devRef_ne_of_ne h) _ _

theorem exit6_arr (c : Dev nD) (w : Fin cfg6.W) :
    (Layer6.dat (E13 m) c).arrAt w cfg6.N = E14 m c (Pipeline.arrRef spec6 w) :=
  exit_arr (Layer6.dat (E13 m) c) (B13 m c) 4 (Layer6.dat_A (E13 m) c) (by decide) w

theorem exit6_rest (c : Dev nD) : ∀ b, b ∉ Finset.univ.image (Pipeline.arrRef spec6) → E14 m c b = E13 m c b :=
  exit_rest (cfg := cfg6) (B13 m c) 4 _

abbrev B15 : Dev nD → Valuation τ sig (Elt F) := fun c => StableHlo.after hostOps7 (B14 m c)

abbrev E15 : (c : Dev nD) → (b : Ref sig .tc) → Buf (Elt F) ((c : Thread nD τ).loc b) := fun c b => B15 m c b

theorem B15_keep (c : Dev nD) (r : Ref sig .tc) (h : r ∉ hostOps7_W) : B15 m c (r : DevRef τ sig) = B14 m c (r : DevRef τ sig) :=
  StableHlo.after_of_writes_sub hostOps7 _ hostOps7_writes h

def B16 (c : Dev nD) : Valuation τ sig (Elt F) :=
  Function.update (B15 m c) (main_v23 : DevRef τ sig) ((Layer7.dat (E15 m) c).arrAt 4 cfg7.N)
abbrev E16 : (c : Dev nD) → (b : Ref sig .tc) → Buf (Elt F) ((c : Thread nD τ).loc b) := fun c b => B16 m c b

theorem B16_out (c : Dev nD) : B16 m c (main_v23 : DevRef τ sig) = (Layer7.dat (E15 m) c).arrAt 4 cfg7.N :=
  Function.update_self _ _ _
theorem B16_of_ne (c : Dev nD) (b : Ref sig .tc) (h : b ≠ main_v23) : B16 m c (b : DevRef τ sig) = B15 m c (b : DevRef τ sig) :=
  Function.update_of_ne (StableHlo.devRef_ne_of_ne h) _ _

theorem exit7_arr (c : Dev nD) (w : Fin cfg7.W) :
    (Layer7.dat (E15 m) c).arrAt w cfg7.N = E16 m c (Pipeline.arrRef spec7 w) :=
  exit_arr (Layer7.dat (E15 m) c) (B15 m c) 4 (Layer7.dat_A (E15 m) c) (by decide) w

theorem exit7_rest (c : Dev nD) : ∀ b, b ∉ Finset.univ.image (Pipeline.arrRef spec7) → E16 m c b = E15 m c b :=
  exit_rest (cfg := cfg7) (B15 m c) 4 _

abbrev B17 : Dev nD → Valuation τ sig (Elt F) := fun c => StableHlo.after hostOps8 (B16 m c)

abbrev E17 : (c : Dev nD) → (b : Ref sig .tc) → Buf (Elt F) ((c : Thread nD τ).loc b) := fun c b => B17 m c b

theorem B17_keep (c : Dev nD) (r : Ref sig .tc) (h : r ∉ hostOps8_W) : B17 m c (r : DevRef τ sig) = B16 m c (r : DevRef τ sig) :=
  StableHlo.after_of_writes_sub hostOps8 _ hostOps8_writes h

def B18 (c : Dev nD) : Valuation τ sig (Elt F) :=
  Function.update (B17 m c) (main_v26 : DevRef τ sig) ((Layer8.dat (E17 m) c).arrAt 4 cfg8.N)
abbrev E18 : (c : Dev nD) → (b : Ref sig .tc) → Buf (Elt F) ((c : Thread nD τ).loc b) := fun c b => B18 m c b

theorem B18_out (c : Dev nD) : B18 m c (main_v26 : DevRef τ sig) = (Layer8.dat (E17 m) c).arrAt 4 cfg8.N :=
  Function.update_self _ _ _
theorem B18_of_ne (c : Dev nD) (b : Ref sig .tc) (h : b ≠ main_v26) : B18 m c (b : DevRef τ sig) = B17 m c (b : DevRef τ sig) :=
  Function.update_of_ne (StableHlo.devRef_ne_of_ne h) _ _

theorem exit8_arr (c : Dev nD) (w : Fin cfg8.W) :
    (Layer8.dat (E17 m) c).arrAt w cfg8.N = E18 m c (Pipeline.arrRef spec8 w) :=
  exit_arr (Layer8.dat (E17 m) c) (B17 m c) 4 (Layer8.dat_A (E17 m) c) (by decide) w

theorem exit8_rest (c : Dev nD) : ∀ b, b ∉ Finset.univ.image (Pipeline.arrRef spec8) → E18 m c b = E17 m c b :=
  exit_rest (cfg := cfg8) (B17 m c) 4 _

abbrev B19 : Dev nD → Valuation τ sig (Elt F) := fun c => StableHlo.after hostOps9 (B18 m c)
theorem B19_keep (c : Dev nD) (r : Ref sig .tc) (h : r ∉ hostOps9_W) : B19 m c (r : DevRef τ sig) = B18 m c (r : DevRef τ sig) :=
  StableHlo.after_of_writes_sub hostOps9 _ hostOps9_writes h

theorem B19_arg (c : Dev nD) (r : Ref sig .tc) (h : r = main_arg0 ∨ r = main_arg1 ∨ r = main_arg2) :
    B19 m c (r : DevRef τ sig) = m ((c : Thread nD τ).loc r) := by
  rcases h with rfl | rfl | rfl <;> exact
    (B19_keep m c _ (by decide)).trans <|
    (B18_of_ne m c _ (by decide)).trans <|
    (B17_keep m c _ (by decide)).trans <|
    (B16_of_ne m c _ (by decide)).trans <|
    (B15_keep m c _ (by decide)).trans <|
    (B14_of_ne m c _ (by decide)).trans <|
    (B13_keep m c _ (by decide)).trans <|
    (B12_of_ne m c _ (by decide)).trans <|
    (B11_keep m c _ (by decide)).trans <|
    (B10_of_ne m c _ (by decide)).trans <|
    (B9_keep m c _ (by decide)).trans <|
    (B8_of_ne m c _ (by decide)).trans <|
    (B7_keep m c _ (by decide)).trans <|
    (B6_of_ne m c _ (by decide)).trans <|
    (B5_keep m c _ (by decide)).trans <|
    (B4_of_ne m c _ (by decide)).trans <|
    (B3_keep m c _ (by decide)).trans <|
    (B2_of_ne m c _ (by decide)).trans <|
    (B1_keep m c _ (by decide)).trans <| rfl
theorem B19_arg0 (c : Dev nD) : B19 m c (main_arg0 : DevRef τ sig) = m ((c : Thread nD τ).loc main_arg0) :=
  B19_arg m c _ (.inl rfl)
theorem B19_arg1 (c : Dev nD) : B19 m c (main_arg1 : DevRef τ sig) = m ((c : Thread nD τ).loc main_arg1) :=
  B19_arg m c _ (.inr (.inl rfl))
theorem B19_arg2 (c : Dev nD) : B19 m c (main_arg2 : DevRef τ sig) = m ((c : Thread nD τ).loc main_arg2) :=
  B19_arg m c _ (.inr (.inr rfl))

end Cert.KernelIdeal.Fold

end
-- ==== Proof.KI.Data.lean ====
import proofs.«156734_j4389456576945_1_alg».proof.Proof.KI.Fold
import Idealize.ShloMosaic.Lib.Pipeline.RegionsLoop

noncomputable section

namespace Cert.KernelIdeal.Data

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fold

variable {F : FTy → Type} [FloatOps F]

local notation "𝕄" => MT nD τ sig Unit (Elt F) ℕ (UR sig nD τ) ℕ

variable (m : (ℓ : Loc nD τ sig) → Buf (Elt F) ℓ)

/-- Every launch's proof data, each at its entry boundary's contents. -/
def pdats : (p : Fin 9) → (c : Dev nD) → Dat τ (Elt F) Unit ℕ (UR sig nD τ) ℕ (Pipeline.pin (pcfgs (F := F)) adm p) c
  | ⟨0, _⟩ => fun c => Layer0.dat (E1 m) c
  | ⟨1, _⟩ => fun c => Layer1.dat (E3 m) c
  | ⟨2, _⟩ => fun c => Layer2.dat (E5 m) c
  | ⟨3, _⟩ => fun c => Layer3.dat (E7 m) c
  | ⟨4, _⟩ => fun c => Layer4.dat (E9 m) c
  | ⟨5, _⟩ => fun c => Layer5.dat (E11 m) c
  | ⟨6, _⟩ => fun c => Layer6.dat (E13 m) c
  | ⟨7, _⟩ => fun c => Layer7.dat (E15 m) c
  | ⟨8, _⟩ => fun c => Layer8.dat (E17 m) c

abbrev 𝒱₀ : Variants := Variants.none
abbrev L : GSem nD τ sig → Finset Unit := fun _ => ∅
abbrev lv : GSem nD τ sig → Unit → ℕ := fun _ _ => 0

/-- What rides beside the arrays through every item: the random-number register at some state, and nothing owed. -/
abbrev R (c : Dev nD) : sProp 𝕄 := iprop((∃ r, prngReg c r) ∗ ∃ W, owes (c : Thread nD τ) (0 : CellTallies nD τ sig Unit) W)

/-- The state between two items: every array of the device at the contents `B`, and `R`. -/
abbrev At (B : Dev nD → Valuation τ sig (Elt F)) (c : Dev nD) : sProp 𝕄 :=
  iprop(StableHlo.held (c : Thread nD τ) (Pipeline.ucRefs τ sig) (B c) ∗ R c)

/-- A stretch of host operations as an item: from the arrays at `B` to the arrays at the operations' results over `B`. -/
abbrev hseg (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem pdats_Φ (p : Fin 9) (c : Dev nD) (t) : (pdats m p c).Φ t = Pipeline.ΦA (cfgs p).spec c := by fin_cases p <;> rfl
theorem pdats_owed (p : Fin 9) (c : Dev nD) (t) : (pdats m p c).owed t = 0 := by fin_cases p <;> rfl
theorem pdats_recorded (p : Fin 9) (c : Dev nD) (t) : (pdats m p c).recorded t = Set.univ := by fin_cases p <;> rfl

variable {p : Fin 9}

/-- Launch `p` as an item, from the arrays at `B` to the arrays at `B'`: its windows' arrays are taken out of the device's
    at the entry (`hsplit`) and put back at the exit (`hjoin`); the register passes through the invariant; nothing is owed. -/
def rseg (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pdats m p c) defs₀ 𝒱₀ () Set.univ)
    (B B' : Dev nD → Valuation τ sig (Elt F))
    (hsplit : ∀ c, (unscopedBufs c (fun b => B c b) : sProp 𝕄)
      ⊢ iprop((pdats m p c).arrays ((pdats m p c).arrAt · 0) ∗ Pipeline.unscopedRest (cfgs p).spec c fun b => B c b))
    (hjoin : ∀ c, iprop((pdats m p c).arrays ((pdats m p c).arrAt · (cfgs p).N) ∗ Pipeline.unscopedRest (cfgs p).spec c fun b => B c b)
      ⊢ (unscopedBufs c (fun b => B' c b) : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p (pdats_owed m p)
  pre c := At B c
  post c := At B' c
  X c := iprop(∃ r, prngReg c r)
  Y c := iprop(∃ r, prngReg c r)
  Z c := Pipeline.unscopedRest (cfgs p).spec c fun b => B c b
  hentry c := by
    have h := hsplit c
    rw [Pipeline.unscopedBufs_held] at h
    rw [Pipeline.ownSems0_none, Pipeline.Dat.owesAt, Pipeline.Dat.bound, pdats_owed, pdats_recorded, Pipeline.prefHeld,
      show (Finset.univ : Finset (Fin 0)) = ∅ from rfl, BI.bigSep_empty]
    iintro ⟨⟨Hub, Hp, %W, HO⟩, -, -⟩
    ihave ⟨Ha, Hrest⟩ := h $$ Hub
    imodintro
    iframe
    isplitr; · iempintro
    iexists W; isplitr; · ipureintro; exact fun _ _ => Or.inl trivial
    iexact HO
  hin c := by
    rw [pdats_Φ, Pipeline.ΦA]
    iintro ⟨Hp, -, Hr⟩
    iframe
  hout c := by
    rw [Pipeline.ownSems0_none, pdats_Φ, Pipeline.ΦA]
    iintro ⟨Hr, Hp⟩
    iframe
    iempintro
  hexit c := by
    have h := hjoin c
    rw [Pipeline.unscopedBufs_held] at h
    rw [Pipeline.Dat.owesAt, pdats_owed]
    iintro ⟨Ha, ⟨%W, -, HO⟩, HY, Hrest⟩
    imodintro
    isplitl [Ha Hrest]
    · iapply h; iframe
    isplitl [HY]; · iexact HY
    iexists W; iexact HO

/-- The same when every window has an array of its own, held whole: the split and the join are the library's. -/
def rsegWhole (lf : Pipeline.LaunchFacts (nD := nD) (τ := τ) cfgs p)
    (hbody : ∀ c, BodyObligation (pdats m p c) defs₀ 𝒱₀ () Set.univ)
    (B B' : Dev nD → Valuation τ sig (Elt F))
    (hq : ∀ c w, (pdats m p c).q w = fullShare)
    (hA : ∀ c w, (pdats m p c).A w = B c (Pipeline.arrRef (cfgs p).spec w))
    (hF : ∀ c w, (pdats m p c).arrAt w (cfgs p).N = B' c (Pipeline.arrRef (cfgs p).spec w))
    (hrest : ∀ c b, b ∉ Finset.univ.image (Pipeline.arrRef (cfgs p).spec) → B' c b = B c b) :
    Pipeline.RegionSeg (pcfgs (F := F)) adm (pdats m) () defs₀ 𝒱₀ L lv p :=
  rseg m lf.win.to₀ lf.block_pos lf.stage_whole hbody B B'
    (fun c => Pipeline.arrays_of_unscopedBufs (pcfgs (F := F)) adm (pdats m) lf.win lf.arr_whole c ((pdats m p c).share_full (hq c)) _ (hA c))
    (fun c => Pipeline.unscopedBufs_of_arrays (pcfgs (F := F)) adm lf.win lf.arr_whole c (pdats m) ((pdats m p c).share_full (hq c)) _ _ _ (hF c) (hrest c))

end Cert.KernelIdeal.Data

end
-- ==== Proof.KI.Share0.lean ====
import proofs.«156734_j4389456576945_1_alg».proof.Proof.KI.Reg0
import Idealize.ShloMosaic.Lib.Pipeline.RegionsLoop

noncomputable section

namespace Cert.KernelIdeal.Layer0.Share

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem split (c : Dev nD) (V : (b : Ref sig .tc) → Buf (Elt F) ((c : Thread nD τ).loc b)) :
    (unscopedBufs c V : sProp 𝕄) = iprop((Pipeline.arrBufs spec0 c V : sProp 𝕄) ∗ Pipeline.unscopedRest spec0 c V) :=
  Pipeline.unscopedBufs_split₀ cfgs 0 winFacts₀0.arr_unscoped c V

/-- The five windows stand on four arrays: held whole at `U`, one by one. -/
theorem arrBufs_chain (c : Dev nD) (U : (b : Ref sig .tc) → Buf (Elt F) ((c : Thread nD τ).loc b)) :
    (Pipeline.arrBufs spec0 c U : sProp 𝕄)
      = iprop((((c.tc : Thread nD τ).loc main_arg1) ↦{fullShare} U main_arg1) ∗ (((c.tc : Thread nD τ).loc main_arg0) ↦{fullShare} U main_arg0)
        ∗ (((c.tc : Thread nD τ).loc main_v1) ↦{fullShare} U main_v1) ∗ (((c.tc : Thread nD τ).loc main_v2) ↦{fullShare} U main_v2)) :=
  bigSep_eq_bigSepL_of_eq [main_arg1, main_arg0, main_v1, main_v2] (by decide) (by decide) _

/-- The five windows' points-tos at contents read off `U`, one by one: the two windows on the shared array hold a half each. -/
theorem arrays_chain (c : Dev nD) (U : (b : Ref sig .tc) → Buf (Elt F) ((c : Thread nD τ).loc b)) :
    ((Layer0.dat V c).arrays (fun w => U (Pipeline.arrRef spec0 w)) : sProp 𝕄)
      = iprop((((c.tc : Thread nD τ).loc main_arg1) ↦{fullShare} U main_arg1) ∗ (((c.tc : Thread nD τ).loc main_arg0) ↦{fullShare.left} U main_arg0)
        ∗ (((c.tc : Thread nD τ).loc main_arg0) ↦{fullShare.right} U main_arg0) ∗ (((c.tc : Thread nD τ).loc main_v1) ↦{fullShare} U main_v1)
        ∗ (((c.tc : Thread nD τ).loc main_v2) ↦{fullShare} U main_v2)) := by
  unfold Dat.arrays
  rw [bigSep_W0, (arr_whole0 0).set_eq_univ, (arr_whole0 1).set_eq_univ, (arr_whole0 3).set_eq_univ, (arr_whole0 4).set_eq_univ]
  rfl

/-- The windows' points-tos are the four arrays whole: the shared array's two halves make its whole. -/
theorem arrays_iff (c : Dev nD) (U : (b : Ref sig .tc) → Buf (Elt F) ((c : Thread nD τ).loc b)) :
    ((Layer0.dat V c).arrays (fun w => U (Pipeline.arrRef spec0 w)) : sProp 𝕄) ⊣⊢ Pipeline.arrBufs spec0 c U := by
  rw [arrays_chain, arrBufs_chain]
  constructor
  · iintro ⟨H1, H0l, H0r, Hv1, Hv2⟩
    ihave H0 := (pointsTo_share (PosShare.mem_left_op_right fullShare)).2 $$ [H0l H0r]; · iframe
    iframe
  · iintro ⟨H1, H0, Hv1, Hv2⟩
    ihave ⟨H0l, H0r⟩ := (pointsTo_share (PosShare.mem_left_op_right fullShare)).1 $$ H0
    iframe

theorem arrays_in (c : Dev nD) :
    (unscopedBufs c (V c) : sProp 𝕄) ⊢ iprop((Layer0.dat V c).arrays ((Layer0.dat V c).arrAt · 0) ∗ Pipeline.unscopedRest spec0 c (V c)) := by
  rw [split c (V c), show ((Layer0.dat V c).arrAt · 0) = fun w => V c (Pipeline.arrRef spec0 w) from funext (dat_A V c)]
  exact sep_mono (arrays_iff V c (V c)).2 .rfl

theorem arrays_out (V' : (c : Dev nD) → (b : Ref sig .tc) → Buf (Elt F) ((c : Thread nD τ).loc b)) (c : Dev nD)
    (hF : ∀ w, (Layer0.dat V c).arrAt w cfg0.N = V' c (Pipeline.arrRef spec0 w))
    (hrest : ∀ b, b ∉ Finset.univ.image (Pipeline.arrRef spec0) → V' c b = V c b) :
    iprop((Layer0.dat V c).arrays ((Layer0.dat V c).arrAt · cfg0.N) ∗ Pipeline.unscopedRest spec0 c (V c)) ⊢ (unscopedBufs c (V' c) : sProp 𝕄) := by
  rw [split c (V' c), show ((Layer0.dat V c).arrAt · cfg0.N) = fun w => V' c (Pipeline.arrRef spec0 w) from funext hF]
  refine sep_mono (arrays_iff V c (V' c)).1 (Entails.of_eq ?_)
  unfold Pipeline.unscopedRest
  exact bigSep_congr fun b hb => by rw [hrest b (Finset.mem_sdiff.mp hb).2]

end Cert.KernelIdeal.Layer0.Share

end
-- ==== Proof.KI.Seg0.lean ====
import proofs.«156734_j4389456576945_1_alg».proof.Proof.KI.Data
import proofs.«156734_j4389456576945_1_alg».proof.Proof.KI.Share0

namespace Cert.KernelIdeal.Seg0

open Idealize.ShloMosaic Gen Fold Data

variable {F : FTy → Type} [FloatOps F] (m : (ℓ : Loc nD τ sig) → Buf (Elt F) ℓ)

/-- The launch as an item of the program. Two of its windows stand on one array, so its arrays are dealt to the windows at
    the entry and joined again at the exit by that array's two lemmas. -/
noncomputable def reg : Pipeline.RegionSeg (pcfgs (F := F)) adm (pdats m) () defs₀ 𝒱₀ L lv (0 : Fin 9) :=
  rseg m winFacts₀0 block_pos0 stage_whole0 (Layer0.body_obligation (E1 m)) (B1 m) (B2 m)
    (Layer0.Share.arrays_in (E1 m)) fun c => Layer0.Share.arrays_out (E1 m) (E2 m) c (exit0_arr m c) (exit0_rest m c)

end Cert.KernelIdeal.Seg0
-- ==== Proof.KI.Seg1.lean ====
import proofs.«156734_j4389456576945_1_alg».proof.Proof.KI.Data

namespace Cert.KernelIdeal.Seg1

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (1 : Fin 9) :=
  rsegWhole m launch1 (Layer1.body_obligation (E3 m)) (B3 m) (B4 m) (fun _ _ => rfl) (fun _ _ => rfl)
    (exit1_arr m) (exit1_rest m)

end Cert.KernelIdeal.Seg1
-- ==== Proof.KI.Seg2.lean ====
import proofs.«156734_j4389456576945_1_alg».proof.Proof.KI.Data

namespace Cert.KernelIdeal.Seg2

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (2 : Fin 9) :=
  rsegWhole m launch2 (Layer2.body_obligation (E5 m)) (B5 m) (B6 m) (fun _ _ => rfl) (fun _ _ => rfl)
    (exit2_arr m) (exit2_rest m)

end Cert.KernelIdeal.Seg2
-- ==== Proof.KI.Seg3.lean ====
import proofs.«156734_j4389456576945_1_alg».proof.Proof.KI.Data

namespace Cert.KernelIdeal.Seg3

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (3 : Fin 9) :=
  rsegWhole m launch3 (Layer3.body_obligation (E7 m)) (B7 m) (B8 m) (fun _ _ => rfl) (fun _ _ => rfl)
    (exit3_arr m) (exit3_rest m)

end Cert.KernelIdeal.Seg3
-- ==== Proof.KI.Seg4.lean ====
import proofs.«156734_j4389456576945_1_alg».proof.Proof.KI.Data

namespace Cert.KernelIdeal.Seg4

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (4 : Fin 9) :=
  rsegWhole m launch4 (Layer4.body_obligation (E9 m)) (B9 m) (B10 m) (fun _ _ => rfl) (fun _ _ => rfl)
    (exit4_arr m) (exit4_rest m)

end Cert.KernelIdeal.Seg4
-- ==== Proof.KI.Seg5.lean ====
import proofs.«156734_j4389456576945_1_alg».proof.Proof.KI.Data

namespace Cert.KernelIdeal.Seg5

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (5 : Fin 9) :=
  rsegWhole m launch5 (Layer5.body_obligation (E11 m)) (B11 m) (B12 m) (fun _ _ => rfl) (fun _ _ => rfl)
    (exit5_arr m) (exit5_rest m)

end Cert.KernelIdeal.Seg5
-- ==== Proof.KI.Seg6.lean ====
import proofs.«156734_j4389456576945_1_alg».proof.Proof.KI.Data

namespace Cert.KernelIdeal.Seg6

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (6 : Fin 9) :=
  rsegWhole m launch6 (Layer6.body_obligation (E13 m)) (B13 m) (B14 m) (fun _ _ => rfl) (fun _ _ => rfl)
    (exit6_arr m) (exit6_rest m)

end Cert.KernelIdeal.Seg6
-- ==== Proof.KI.Seg7.lean ====
import proofs.«156734_j4389456576945_1_alg».proof.Proof.KI.Data

namespace Cert.KernelIdeal.Seg7

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (7 : Fin 9) :=
  rsegWhole m launch7 (Layer7.body_obligation (E15 m)) (B15 m) (B16 m) (fun _ _ => rfl) (fun _ _ => rfl)
    (exit7_arr m) (exit7_rest m)

end Cert.KernelIdeal.Seg7
-- ==== Proof.KI.Seg8.lean ====
import proofs.«156734_j4389456576945_1_alg».proof.Proof.KI.Data

namespace Cert.KernelIdeal.Seg8

open Idealize.ShloMosaic Gen Fold Data

variable {F : FTy → Type} [FloatOps F] (m : (ℓ : Loc nD τ sig) → Buf (Elt F) ℓ)

/-- The launch as an item of the program: entered with every array at its entry boundary's contents, left at its exit boundary's. -/
noncomputable def reg : Pipeline.RegionSeg (pcfgs (F := F)) adm (pdats m) () defs₀ 𝒱₀ L lv (8 : Fin 9) :=
  rsegWhole m launch8 (Layer8.body_obligation (E17 m)) (B17 m) (B18 m) (fun _ _ => rfl) (fun _ _ => rfl)
    (exit8_arr m) (exit8_rest m)

end Cert.KernelIdeal.Seg8
-- ==== Proof.KI.Run.lean ====
import proofs.«156734_j4389456576945_1_alg».proof.Proof.KI.Seg0
import proofs.«156734_j4389456576945_1_alg».proof.Proof.KI.Seg1
import proofs.«156734_j4389456576945_1_alg».proof.Proof.KI.Seg2
import proofs.«156734_j4389456576945_1_alg».proof.Proof.KI.Seg3
import proofs.«156734_j4389456576945_1_alg».proof.Proof.KI.Seg4
import proofs.«156734_j4389456576945_1_alg».proof.Proof.KI.Seg5
import proofs.«156734_j4389456576945_1_alg».proof.Proof.KI.Seg6
import proofs.«156734_j4389456576945_1_alg».proof.Proof.KI.Seg7
import proofs.«156734_j4389456576945_1_alg».proof.Proof.KI.Seg8

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fold Cert.KernelIdeal.Data

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev items : List (Pipeline.Seg (pcfgs (F := F)) adm (pdats m) () defs₀ 𝒱₀ L lv) :=
  [
    .host (hseg hostOps0 hostOps0_sub hostOps0_fresh (B0 m)),
    .region (Seg0.reg m),
    .host (hseg hostOps1 hostOps1_sub hostOps1_fresh (B2 m)),
    .region (Seg1.reg m),
    .host (hseg hostOps2 hostOps2_sub hostOps2_fresh (B4 m)),
    .region (Seg2.reg m),
    .host (hseg hostOps3 hostOps3_sub hostOps3_fresh (B6 m)),
    .region (Seg3.reg m),
    .host (hseg hostOps4 hostOps4_sub hostOps4_fresh (B8 m)),
    .region (Seg4.reg m),
    .host (hseg hostOps5 hostOps5_sub hostOps5_fresh (B10 m)),
    .region (Seg5.reg m),
    .host (hseg hostOps6 hostOps6_sub hostOps6_fresh (B12 m)),
    .region (Seg6.reg m),
    .host (hseg hostOps7 hostOps7_sub hostOps7_fresh (B14 m)),
    .region (Seg7.reg m),
    .host (hseg hostOps8 hostOps8_sub hostOps8_fresh (B16 m)),
    .region (Seg8.reg m),
    .host (hseg hostOps9 hostOps9_sub hostOps9_fresh (B18 m)) ]

theorem main_items (c : Dev nD) : main (F := F) c = Pipeline.Seg.run (items m) := (main_chain c).trans (by chain_rfl)

abbrev Last (c : Dev nD) : sProp 𝕄 :=
  iprop(StableHlo.held (c : Thread nD τ) (Pipeline.ucRefs τ sig) (B19 m c) ∗ ∃ r, prngReg c r)

theorem run_all : θ_run defs (onTc (τ := τ) (main (F := F))) ⟨m, fun _ => 0, ρ⟩ (fun r => ∀ c : Dev nD,
      ∀ b ∈ Pipeline.ucRefs τ sig, r.2.mem (((c : Thread nD τ)).1, b) = B19 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]; · iapply (show (ownU _ : sProp 𝕄) ⊢ BI.own (emb₁ _) from .rfl); iexact Hu
      iempintro)
    (T₀ := fun c => At (B0 m) c) (Tₙ := Last m)
    (hch := by
      repeat (refine ⟨fun _ => .rfl, ?_⟩)
      exact fun _ => sep_assoc')
    (hinit := by
      refine Pipeline.initEach L lv fun c => ?_
      rw [show unscopedBufs c (fun b => m ((c : Thread nD τ).loc b)) = _ from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B19 m c b)
    (hfin := fun c s' => by
      iintro ⟨⟨Hh, -⟩, HSI⟩
      unfold StableHlo.held
      imodintro
      iapply (pointsTo_read_all (Pipeline.ucRefs τ sig) (fun b => (((c : Thread nD τ)).1, b)) (B19 m c) s')
      iframe)
    (hQ := fun s h => h)

theorem run_result : θ_run defs (onTc (τ := τ) (main (F := F))) ⟨m, fun _ => 0, ρ⟩ (fun r => ∀ c : Dev nD,
      r.2.mem ((c.tc : Thread nD τ).loc main_v28) = B19 m c (main_v28 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v28 (by decide)),
     (h c _ (mem_uc main_arg0 (by decide))).trans (B19_arg0 m c),
     (h c _ (mem_uc main_arg1 (by decide))).trans (B19_arg1 m c),
     (h c _ (mem_uc main_arg2 (by decide))).trans (B19_arg2 m c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Run

end
-- ==== Proof.Spec.lean ====
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

abbrev SCol : Shape := ⟨2, ![12288, 1]⟩
abbrev SMat : Shape := ⟨2, ![12288, 12288]⟩
abbrev SW : Shape := ⟨3, ![9, 1, 1]⟩
abbrev SOut : Shape := ⟨1, ![12288]⟩

abbrev Col : Type := SCol.Idx → EReal
abbrev Mat : Type := SMat.Idx → EReal
abbrev Wts : Type := SW.Idx → EReal

/-- The float literals both programs carry, as the extended reals their words denote. -/
abbrev c07 : EReal := Ideal.ofBits .f32 0x3F333333#32
abbrev c03 : EReal := Ideal.ofBits .f32 0x3E99999A#32
abbrev cSlope : EReal := Ideal.ofBits .f32 0x3C23D70A#32
abbrev cRows : EReal := Ideal.ofBits .f32 0x46400000#32
abbrev cZero : EReal := Ideal.ofBits .f32 0x00000000#32

/-- Row `r` of the product `A x`. -/
def prop (A : Mat) (x : Col) (r : Fin 12288) : EReal := ∑ k : Fin 12288, A (ix2 r k) * x (ix2 k (0 : Fin 1))

/-- Row `r` of a layer before its activation: `(c07 (A x) + c03 x0) w`. -/
def pre (A : Mat) (x x0 : Col) (w : EReal) (r : Fin 12288) : EReal :=
  (c07 * prop A x r + c03 * x0 (ix2 r (0 : Fin 1))) * w

inductive Act where
  | none | leaky | relu | sigm | sigmRows

/-- The five activations met along the chain, on one extended real. -/
def Act.ap : Act → EReal → EReal
  | .none, v => v
  | .leaky, v => Scalar.select (Ideal.cmp .oge v cZero) v (cSlope * v)
  | .relu, v => max v cZero
  | .sigm, v => Ideal.logistic v
  | .sigmRows, v => Ideal.logistic v * cRows

def layer (a : Act) (A : Mat) (x x0 : Col) (w : EReal) : Col := fun i => a.ap (pre A x x0 w (i 0))

def wt (W : Wts) (k : Fin 9) : EReal := W (ix3 k (0 : Fin 1) (0 : Fin 1))

/-- The nine layers in order, the k-th with weight `W[k,0,0]`. -/
def x1 (A : Mat) (x0 : Col) (W : Wts) : Col := layer .none A x0 x0 (wt W 0)
def x2 (A : Mat) (x0 : Col) (W : Wts) : Col := layer .leaky A (x1 A x0 W) x0 (wt W 1)
def x3 (A : Mat) (x0 : Col) (W : Wts) : Col := layer .relu A (x2 A x0 W) x0 (wt W 2)
def x4 (A : Mat) (x0 : Col) (W : Wts) : Col := layer .relu A (x3 A x0 W) x0 (wt W 3)
def x5 (A : Mat) (x0 : Col) (W : Wts) : Col := layer .sigm A (x4 A x0 W) x0 (wt W 4)
def x6 (A : Mat) (x0 : Col) (W : Wts) : Col := layer .relu A (x5 A x0 W) x0 (wt W 5)
def x7 (A : Mat) (x0 : Col) (W : Wts) : Col := layer .relu A (x6 A x0 W) x0 (wt W 6)
def x8 (A : Mat) (x0 : Col) (W : Wts) : Col := layer .relu A (x7 A x0 W) x0 (wt W 7)
def x9 (A : Mat) (x0 : Col) (W : Wts) : Col := layer .sigmRows A (x8 A x0 W) x0 (wt W 8)

/-- The last column, each entry converted to a signed 32-bit integer. -/
def result (x0 : Col) (A : Mat) (W : Wts) : SOut.Idx → BitVec 32 :=
  fun j => FloatOps.fptosi (F := Ideal) (φ := .f32) 32 (x9 A x0 W (ix2 (j 0) (0 : Fin 1)))

end Cert.Gcn

end
-- ==== Proof.KI.Pay.lean ====
import proofs.«156734_j4389456576945_1_alg».proof.Proof.Spec
import proofs.«156734_j4389456576945_1_alg».proof.Proof.Gen.KernelIdeal.Skeleton
import Idealize.ShloMosaic.Lib.StackMember

noncomputable section

namespace Cert.KernelIdeal.Pay

open Cert.KernelIdeal.Gen Idealize.ShloMosaic Idealize.ShloMosaic.ValueIdx

abbrev act0 : Cert.Gcn.Act := .none
abbrev act1 : Cert.Gcn.Act := .leaky
abbrev act2 : Cert.Gcn.Act := .relu
abbrev act3 : Cert.Gcn.Act := .relu
abbrev act4 : Cert.Gcn.Act := .sigm
abbrev act5 : Cert.Gcn.Act := .relu
abbrev act6 : Cert.Gcn.Act := .relu
abbrev act7 : Cert.Gcn.Act := .relu
abbrev act8 : Cert.Gcn.Act := .sigmRows

/-- A body's stored value as a function of its four blocks. -/
abbrev Payload : Type := FVec Ideal S384x12288 .f32 → FVec Ideal S12288x1 .f32 → FVec Ideal S384x1 .f32 →
  FVec Ideal S1x1 .f32 → FVec Ideal S384x1 .f32

/-- The layer's row `p` of four blocks, before the activation. -/
def lin (v0 : FVec Ideal S384x12288 .f32) (v1 : FVec Ideal S12288x1 .f32) (v5 : FVec Ideal S384x1 .f32)
    (v9 : FVec Ideal S1x1 .f32) (p : Fin 384) : EReal :=
  (Cert.Gcn.c07 * (∑ k : Fin 12288, v0 (ix2 p k) * v1 (ix2 k (0 : Fin 1))) + Cert.Gcn.c03 * v5 (ix2 p (0 : Fin 1)))
    * v9 (ix2 (0 : Fin 1) (0 : Fin 1))

/-- Every operation but the product acts entry by entry; the product into the zero accumulator is the row's sum. -/
theorem lin_apply (v0 : FVec Ideal S384x12288 .f32) (v1 : FVec Ideal S12288x1 .f32) (v5 : FVec Ideal S384x1 .f32)
    (v9 : FVec Ideal S1x1 .f32) (p : Fin 384) (q : Fin 1) :
    k0_pay1 (F := Ideal) v0 v1 v5 v9 (ix2 p q) = lin v0 v1 v5 v9 p := by
  obtain rfl : q = 0 := Subsingleton.elim _ _
  unfold k0_pay1 lin
  rw [mulf_apply, addf_apply, mulf_apply, mulf_apply, broadcast_apply, broadcast_apply, broadcast_apply,
    matmul_zero_eq_dotGeneral, show dot_S384x12288_S12288x1_S384x1_1_0_0_1_n_n = DotDims.plain 384 12288 1 from rfl,
    StackMember.dotGeneral_plain_apply]
  exact congrArg (fun i => _ * v9 i) (Shape.idx_ext₂ rfl rfl)

/-- `f` stores, at every row of its block, activation `a` of the linear part. -/
def Stores (a : Cert.Gcn.Act) (f : Payload) : Prop := ∀ v0 v1 v5 v9 y, f v0 v1 v5 v9 y = a.ap (lin v0 v1 v5 v9 (y 0))

/-- So does `a`, entry by entry, of the first launch's value at the column `u` the product takes: the column, or its reshape to its own shape. -/
theorem stores {a : Cert.Gcn.Act} {f : Payload}
    (h : ∀ v0 v1 v5 v9, ∃ u, u = v1 ∧ ∀ y, f v0 v1 v5 v9 y = a.ap (k0_pay1 (F := Ideal) v0 u v5 v9 y)) : Stores a f :=
  fun v0 v1 v5 v9 y => by
    obtain ⟨_, rfl, h⟩ := h v0 v1 v5 v9
    exact (h y).trans (congrArg a.ap ((congrArg _ (eq_ix2 y)).trans (lin_apply _ _ _ _ (y 0) (y 1))))

theorem pay0 : Stores act0 (k0_pay1 (F := Ideal)) := stores fun _ v1 _ _ => ⟨v1, rfl, fun _ => rfl⟩
theorem pay1 : Stores act1 (k1_pay1 (F := Ideal)) := stores fun _ v1 _ _ => ⟨_, shapeCast_self v1 _, fun _ => rfl⟩
theorem pay2 : Stores act2 (k2_pay1 (F := Ideal)) := stores fun _ v1 _ _ => ⟨_, shapeCast_self v1 _, fun _ => rfl⟩
theorem pay3 : Stores act3 (k3_pay1 (F := Ideal)) := stores fun _ v1 _ _ => ⟨_, shapeCast_self v1 _, fun _ => rfl⟩
theorem pay4 : Stores act4 (k4_pay1 (F := Ideal)) := stores fun _ v1 _ _ => ⟨_, shapeCast_self v1 _, fun _ => rfl⟩
theorem pay5 : Stores act5 (k5_pay1 (F := Ideal)) := stores fun _ v1 _ _ => ⟨_, shapeCast_self v1 _, fun _ => rfl⟩
theorem pay6 : Stores act6 (k6_pay1 (F := Ideal)) := stores fun _ v1 _ _ => ⟨_, shapeCast_self v1 _, fun _ => rfl⟩
theorem pay7 : Stores act7 (k7_pay1 (F := Ideal)) := stores fun _ v1 _ _ => ⟨_, shapeCast_self v1 _, fun _ => rfl⟩
theorem pay8 : Stores act8 (k8_pay1 (F := Ideal)) := stores fun _ v1 _ _ => ⟨_, shapeCast_self v1 _, fun _ => rfl⟩

end Cert.KernelIdeal.Pay

end
-- ==== Proof.KI.Rows.lean ====
import proofs.«156734_j4389456576945_1_alg».proof.Proof.KI.Pay

noncomputable section

namespace Cert.KernelIdeal.Rows

open Cert.KernelIdeal.Gen Idealize.ShloMosaic Idealize.ShloMosaic.ValueIdx

/-- A block's entry is the array's at block index times block size plus its own coordinate: rows move with the point `n`, the column and the weight are whole. -/
theorem Stores.flushed {a : Cert.Gcn.Act} {f : Pay.Payload} (hf : Pay.Stores a f) (A : Cert.Gcn.Mat) (x x0 : Cert.Gcn.Col)
    (W : FVec Ideal S1x1 .f32) {n : ℕ} {i0 i1 i2 i3 i4 : Fin 2 → ℕ}
    (hi : i0 = ![n, 0] ∧ i1 = ![0, 0] ∧ i2 = ![n, 0] ∧ i3 = ![0, 0] ∧ i4 = ![n, 0])
    {E0 : S384x12288.Idx → S12288x12288.Idx} (h0 : ∀ y a, (E0 y a : ℕ) = i0 a * S384x12288.size a + y a)
    {E1 : S12288x1.Idx → S12288x1.Idx} (h1 : ∀ y a, (E1 y a : ℕ) = i1 a * S12288x1.size a + y a)
    {E2 : S384x1.Idx → S12288x1.Idx} (h2 : ∀ y a, (E2 y a : ℕ) = i2 a * S384x1.size a + y a)
    {E3 : S1x1.Idx → S1x1.Idx} (h3 : ∀ y a, (E3 y a : ℕ) = i3 a * S1x1.size a + y a)
    {E4 : S384x1.Idx → S12288x1.Idx} (h4 : ∀ y a, (E4 y a : ℕ) = i4 a * S384x1.size a + y a) (j : S384x1.Idx) :
    f (fun y => A (E0 y)) (fun y => x (E1 y)) (fun y => x0 (E2 y)) (fun y => W (E3 y)) j
      = Cert.Gcn.layer a A x x0 (W (ix2 (0 : Fin 1) (0 : Fin 1))) (E4 j) := by
  obtain ⟨rfl, rfl, rfl, rfl, rfl⟩ := hi
  have z : ∀ m k : ℕ, 0 * m + k = k := fun m k => by rw [Nat.zero_mul, Nat.zero_add]
  have r0 : ∀ k, E0 (ix2 (j 0) k) = ix2 (E4 j 0) k := fun k =>
    Shape.idx_ext₂ ((h0 _ 0).trans (h4 j 0).symm) ((h0 _ 1).trans (z _ _))
  have r1 : ∀ k, E1 (ix2 k (0 : Fin 1)) = ix2 k (0 : Fin 1) := fun k =>
    Shape.idx_ext₂ ((h1 _ 0).trans (z _ _)) ((h1 _ 1).trans (z _ _))
  have r2 : E2 (ix2 (j 0) (0 : Fin 1)) = ix2 (E4 j 0) (0 : Fin 1) :=
    Shape.idx_ext₂ ((h2 _ 0).trans (h4 j 0).symm) ((h2 _ 1).trans (z _ _))
  have r3 : E3 (ix2 (0 : Fin 1) (0 : Fin 1)) = ix2 (0 : Fin 1) (0 : Fin 1) :=
    Shape.idx_ext₂ ((h3 _ 0).trans (z _ _)) ((h3 _ 1).trans (z _ _))
  rw [hf]
  unfold Pay.lin
  simp only [r0, r1, r2, r3]
  rfl

/-- Row `i 0` of the 12288 lies in the 384-row block number `i 0 / 384`, one of 32. -/
theorem div_lt (i : S12288x1.Idx) : (i 0).val / 384 < 32 := by have : (i 0).val < 12288 := (i 0).isLt; omega

theorem mem_rows (i : S12288x1.Idx) {i4 : Fin 2 → ℕ} (h : i4 = ![(i 0).val / 384, 0]) (a : Fin 2) :
    i4 a * S384x1.size a ≤ (i a).val ∧ (i a).val < i4 a * S384x1.size a + S384x1.size a := by
  subst h
  have h0 : (i 0).val < 12288 := (i 0).isLt
  have h1 : (i 1).val < 1 := (i 1).isLt
  match a with
  | ⟨0, _⟩ => show (i 0).val / 384 * 384 ≤ (i 0).val ∧ (i 0).val < (i 0).val / 384 * 384 + 384; omega
  | ⟨1, _⟩ => show 0 * 1 ≤ (i 1).val ∧ (i 1).val < 0 * 1 + 1; omega

end Cert.KernelIdeal.Rows

end
-- ==== Proof.KI.Val0.lean ====
import proofs.«156734_j4389456576945_1_alg».proof.Proof.KI.Reg0
import proofs.«156734_j4389456576945_1_alg».proof.Proof.KI.Rows

noncomputable section

namespace Cert.KernelIdeal.Layer0.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

theorem cover (i : S12288x1.Idx) :
    ∃ t : Fin cfg0.N, (cfg0.win 4).flush t = true ∧ i ∈ ((cfg0.win 4).blk t).view.set :=
  ⟨⟨(i 0).val / 384, (Rows.div_lt i).trans_eq N_0.symm⟩, flush0_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer0.dat (F := Ideal) V c).arrAt 4 cfg0.N : S12288x1.Idx → EReal)
      = Cert.Gcn.layer Cert.KernelIdeal.Pay.act0 (V c (Pipeline.arrRef spec0 0)) (V c (Pipeline.arrRef spec0 1)) (V c (Pipeline.arrRef spec0 2))
          ((V c (Pipeline.arrRef spec0 3) : S1x1.Idx → EReal) (ix2 (0 : Fin 1) (0 : Fin 1))) :=
  (Layer0.dat (F := Ideal) V c).arrAt_eq_of_cover 4 _ (fun t _ => by
    rw [Pipeline.Dat.flushed, Layer0.after4, Body.out_eq]
    exact funext (Rows.Stores.flushed Pay.pay0 _ _ _ _ (idx t) (win0_0.rect_emb_val t) (win0_1.rect_emb_val t)
      (win0_2.rect_emb_val t) (win0_3.rect_emb_val t) (win0_4.rect_emb_val t))) cover

end Cert.KernelIdeal.Layer0.Val

end
-- ==== Proof.KI.Val1.lean ====
import proofs.«156734_j4389456576945_1_alg».proof.Proof.KI.Reg1
import proofs.«156734_j4389456576945_1_alg».proof.Proof.KI.Rows

noncomputable section

namespace Cert.KernelIdeal.Layer1.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg1.N, win1_0.index t = ![t.val, 0] ∧ win1_1.index t = ![0, 0] ∧ win1_2.index t = ![t.val, 0]
    ∧ win1_3.index t = ![0, 0] ∧ win1_4.index t = ![t.val, 0] :=
  (by decide +kernel : ∀ t : Fin grid1.N, _)

theorem cover (i : S12288x1.Idx) :
    ∃ t : Fin cfg1.N, (cfg1.win 4).flush t = true ∧ i ∈ ((cfg1.win 4).blk t).view.set :=
  ⟨⟨(i 0).val / 384, (Rows.div_lt i).trans_eq N_1.symm⟩, flush1_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer1.dat (F := Ideal) V c).arrAt 4 cfg1.N : S12288x1.Idx → EReal)
      = Cert.Gcn.layer Cert.KernelIdeal.Pay.act1 (V c (Pipeline.arrRef spec1 0)) (V c (Pipeline.arrRef spec1 1)) (V c (Pipeline.arrRef spec1 2))
          ((V c (Pipeline.arrRef spec1 3) : S1x1.Idx → EReal) (ix2 (0 : Fin 1) (0 : Fin 1))) :=
  (Layer1.dat (F := Ideal) V c).arrAt_eq_of_cover 4 _ (fun t _ => by
    rw [Pipeline.Dat.flushed, Layer1.after4, Body.out_eq]
    exact funext (Rows.Stores.flushed Pay.pay1 _ _ _ _ (idx t) (win1_0.rect_emb_val t) (win1_1.rect_emb_val t)
      (win1_2.rect_emb_val t) (win1_3.rect_emb_val t) (win1_4.rect_emb_val t))) cover

end Cert.KernelIdeal.Layer1.Val

end
-- ==== Proof.KI.Val2.lean ====
import proofs.«156734_j4389456576945_1_alg».proof.Proof.KI.Reg2
import proofs.«156734_j4389456576945_1_alg».proof.Proof.KI.Rows

noncomputable section

namespace Cert.KernelIdeal.Layer2.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg2.N, win2_0.index t = ![t.val, 0] ∧ win2_1.index t = ![0, 0] ∧ win2_2.index t = ![t.val, 0]
    ∧ win2_3.index t = ![0, 0] ∧ win2_4.index t = ![t.val, 0] :=
  (by decide +kernel : ∀ t : Fin grid2.N, _)

theorem cover (i : S12288x1.Idx) :
    ∃ t : Fin cfg2.N, (cfg2.win 4).flush t = true ∧ i ∈ ((cfg2.win 4).blk t).view.set :=
  ⟨⟨(i 0).val / 384, (Rows.div_lt i).trans_eq N_2.symm⟩, flush2_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer2.dat (F := Ideal) V c).arrAt 4 cfg2.N : S12288x1.Idx → EReal)
      = Cert.Gcn.layer Cert.KernelIdeal.Pay.act2 (V c (Pipeline.arrRef spec2 0)) (V c (Pipeline.arrRef spec2 1)) (V c (Pipeline.arrRef spec2 2))
          ((V c (Pipeline.arrRef spec2 3) : S1x1.Idx → EReal) (ix2 (0 : Fin 1) (0 : Fin 1))) :=
  (Layer2.dat (F := Ideal) V c).arrAt_eq_of_cover 4 _ (fun t _ => by
    rw [Pipeline.Dat.flushed, Layer2.after4, Body.out_eq]
    exact funext (Rows.Stores.flushed Pay.pay2 _ _ _ _ (idx t) (win2_0.rect_emb_val t) (win2_1.rect_emb_val t)
      (win2_2.rect_emb_val t) (win2_3.rect_emb_val t) (win2_4.rect_emb_val t))) cover

end Cert.KernelIdeal.Layer2.Val

end
-- ==== Proof.KI.Val3.lean ====
import proofs.«156734_j4389456576945_1_alg».proof.Proof.KI.Reg3
import proofs.«156734_j4389456576945_1_alg».proof.Proof.KI.Rows

noncomputable section

namespace Cert.KernelIdeal.Layer3.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg3.N, win3_0.index t = ![t.val, 0] ∧ win3_1.index t = ![0, 0] ∧ win3_2.index t = ![t.val, 0]
    ∧ win3_3.index t = ![0, 0] ∧ win3_4.index t = ![t.val, 0] :=
  (by decide +kernel : ∀ t : Fin grid3.N, _)

theorem cover (i : S12288x1.Idx) :
    ∃ t : Fin cfg3.N, (cfg3.win 4).flush t = true ∧ i ∈ ((cfg3.win 4).blk t).view.set :=
  ⟨⟨(i 0).val / 384, (Rows.div_lt i).trans_eq N_3.symm⟩, flush3_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer3.dat (F := Ideal) V c).arrAt 4 cfg3.N : S12288x1.Idx → EReal)
      = Cert.Gcn.layer Cert.KernelIdeal.Pay.act3 (V c (Pipeline.arrRef spec3 0)) (V c (Pipeline.arrRef spec3 1)) (V c (Pipeline.arrRef spec3 2))
          ((V c (Pipeline.arrRef spec3 3) : S1x1.Idx → EReal) (ix2 (0 : Fin 1) (0 : Fin 1))) :=
  (Layer3.dat (F := Ideal) V c).arrAt_eq_of_cover 4 _ (fun t _ => by
    rw [Pipeline.Dat.flushed, Layer3.after4, Body.out_eq]
    exact funext (Rows.Stores.flushed Pay.pay3 _ _ _ _ (idx t) (win3_0.rect_emb_val t) (win3_1.rect_emb_val t)
      (win3_2.rect_emb_val t) (win3_3.rect_emb_val t) (win3_4.rect_emb_val t))) cover

end Cert.KernelIdeal.Layer3.Val

end
-- ==== Proof.KI.Val4.lean ====
import proofs.«156734_j4389456576945_1_alg».proof.Proof.KI.Reg4
import proofs.«156734_j4389456576945_1_alg».proof.Proof.KI.Rows

noncomputable section

namespace Cert.KernelIdeal.Layer4.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg4.N, win4_0.index t = ![t.val, 0] ∧ win4_1.index t = ![0, 0] ∧ win4_2.index t = ![t.val, 0]
    ∧ win4_3.index t = ![0, 0] ∧ win4_4.index t = ![t.val, 0] :=
  (by decide +kernel : ∀ t : Fin grid4.N, _)

theorem cover (i : S12288x1.Idx) :
    ∃ t : Fin cfg4.N, (cfg4.win 4).flush t = true ∧ i ∈ ((cfg4.win 4).blk t).view.set :=
  ⟨⟨(i 0).val / 384, (Rows.div_lt i).trans_eq N_4.symm⟩, flush4_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer4.dat (F := Ideal) V c).arrAt 4 cfg4.N : S12288x1.Idx → EReal)
      = Cert.Gcn.layer Cert.KernelIdeal.Pay.act4 (V c (Pipeline.arrRef spec4 0)) (V c (Pipeline.arrRef spec4 1)) (V c (Pipeline.arrRef spec4 2))
          ((V c (Pipeline.arrRef spec4 3) : S1x1.Idx → EReal) (ix2 (0 : Fin 1) (0 : Fin 1))) :=
  (Layer4.dat (F := Ideal) V c).arrAt_eq_of_cover 4 _ (fun t _ => by
    rw [Pipeline.Dat.flushed, Layer4.after4, Body.out_eq]
    exact funext (Rows.Stores.flushed Pay.pay4 _ _ _ _ (idx t) (win4_0.rect_emb_val t) (win4_1.rect_emb_val t)
      (win4_2.rect_emb_val t) (win4_3.rect_emb_val t) (win4_4.rect_emb_val t))) cover

end Cert.KernelIdeal.Layer4.Val

end
-- ==== Proof.KI.Val5.lean ====
import proofs.«156734_j4389456576945_1_alg».proof.Proof.KI.Reg5
import proofs.«156734_j4389456576945_1_alg».proof.Proof.KI.Rows

noncomputable section

namespace Cert.KernelIdeal.Layer5.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg5.N, win5_0.index t = ![t.val, 0] ∧ win5_1.index t = ![0, 0] ∧ win5_2.index t = ![t.val, 0]
    ∧ win5_3.index t = ![0, 0] ∧ win5_4.index t = ![t.val, 0] :=
  (by decide +kernel : ∀ t : Fin grid5.N, _)

theorem cover (i : S12288x1.Idx) :
    ∃ t : Fin cfg5.N, (cfg5.win 4).flush t = true ∧ i ∈ ((cfg5.win 4).blk t).view.set :=
  ⟨⟨(i 0).val / 384, (Rows.div_lt i).trans_eq N_5.symm⟩, flush5_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer5.dat (F := Ideal) V c).arrAt 4 cfg5.N : S12288x1.Idx → EReal)
      = Cert.Gcn.layer Cert.KernelIdeal.Pay.act5 (V c (Pipeline.arrRef spec5 0)) (V c (Pipeline.arrRef spec5 1)) (V c (Pipeline.arrRef spec5 2))
          ((V c (Pipeline.arrRef spec5 3) : S1x1.Idx → EReal) (ix2 (0 : Fin 1) (0 : Fin 1))) :=
  (Layer5.dat (F := Ideal) V c).arrAt_eq_of_cover 4 _ (fun t _ => by
    rw [Pipeline.Dat.flushed, Layer5.after4, Body.out_eq]
    exact funext (Rows.Stores.flushed Pay.pay5 _ _ _ _ (idx t) (win5_0.rect_emb_val t) (win5_1.rect_emb_val t)
      (win5_2.rect_emb_val t) (win5_3.rect_emb_val t) (win5_4.rect_emb_val t))) cover

end Cert.KernelIdeal.Layer5.Val

end
-- ==== Proof.KI.Val6.lean ====
import proofs.«156734_j4389456576945_1_alg».proof.Proof.KI.Reg6
import proofs.«156734_j4389456576945_1_alg».proof.Proof.KI.Rows

noncomputable section

namespace Cert.KernelIdeal.Layer6.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg6.N, win6_0.index t = ![t.val, 0] ∧ win6_1.index t = ![0, 0] ∧ win6_2.index t = ![t.val, 0]
    ∧ win6_3.index t = ![0, 0] ∧ win6_4.index t = ![t.val, 0] :=
  (by decide +kernel : ∀ t : Fin grid6.N, _)

theorem cover (i : S12288x1.Idx) :
    ∃ t : Fin cfg6.N, (cfg6.win 4).flush t = true ∧ i ∈ ((cfg6.win 4).blk t).view.set :=
  ⟨⟨(i 0).val / 384, (Rows.div_lt i).trans_eq N_6.symm⟩, flush6_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer6.dat (F := Ideal) V c).arrAt 4 cfg6.N : S12288x1.Idx → EReal)
      = Cert.Gcn.layer Cert.KernelIdeal.Pay.act6 (V c (Pipeline.arrRef spec6 0)) (V c (Pipeline.arrRef spec6 1)) (V c (Pipeline.arrRef spec6 2))
          ((V c (Pipeline.arrRef spec6 3) : S1x1.Idx → EReal) (ix2 (0 : Fin 1) (0 : Fin 1))) :=
  (Layer6.dat (F := Ideal) V c).arrAt_eq_of_cover 4 _ (fun t _ => by
    rw [Pipeline.Dat.flushed, Layer6.after4, Body.out_eq]
    exact funext (Rows.Stores.flushed Pay.pay6 _ _ _ _ (idx t) (win6_0.rect_emb_val t) (win6_1.rect_emb_val t)
      (win6_2.rect_emb_val t) (win6_3.rect_emb_val t) (win6_4.rect_emb_val t))) cover

end Cert.KernelIdeal.Layer6.Val

end
-- ==== Proof.KI.Val7.lean ====
import proofs.«156734_j4389456576945_1_alg».proof.Proof.KI.Reg7
import proofs.«156734_j4389456576945_1_alg».proof.Proof.KI.Rows

noncomputable section

namespace Cert.KernelIdeal.Layer7.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg7.N, win7_0.index t = ![t.val, 0] ∧ win7_1.index t = ![0, 0] ∧ win7_2.index t = ![t.val, 0]
    ∧ win7_3.index t = ![0, 0] ∧ win7_4.index t = ![t.val, 0] :=
  (by decide +kernel : ∀ t : Fin grid7.N, _)

theorem cover (i : S12288x1.Idx) :
    ∃ t : Fin cfg7.N, (cfg7.win 4).flush t = true ∧ i ∈ ((cfg7.win 4).blk t).view.set :=
  ⟨⟨(i 0).val / 384, (Rows.div_lt i).trans_eq N_7.symm⟩, flush7_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer7.dat (F := Ideal) V c).arrAt 4 cfg7.N : S12288x1.Idx → EReal)
      = Cert.Gcn.layer Cert.KernelIdeal.Pay.act7 (V c (Pipeline.arrRef spec7 0)) (V c (Pipeline.arrRef spec7 1)) (V c (Pipeline.arrRef spec7 2))
          ((V c (Pipeline.arrRef spec7 3) : S1x1.Idx → EReal) (ix2 (0 : Fin 1) (0 : Fin 1))) :=
  (Layer7.dat (F := Ideal) V c).arrAt_eq_of_cover 4 _ (fun t _ => by
    rw [Pipeline.Dat.flushed, Layer7.after4, Body.out_eq]
    exact funext (Rows.Stores.flushed Pay.pay7 _ _ _ _ (idx t) (win7_0.rect_emb_val t) (win7_1.rect_emb_val t)
      (win7_2.rect_emb_val t) (win7_3.rect_emb_val t) (win7_4.rect_emb_val t))) cover

end Cert.KernelIdeal.Layer7.Val

end
-- ==== Proof.KI.Val8.lean ====
import proofs.«156734_j4389456576945_1_alg».proof.Proof.KI.Reg8
import proofs.«156734_j4389456576945_1_alg».proof.Proof.KI.Rows

noncomputable section

namespace Cert.KernelIdeal.Layer8.Val

open Cert.KernelIdeal.Gen Idealize.ShloMosaic Idealize.ShloMosaic.TcCoe Idealize.ShloMosaic.ValueIdx

/-- Block indices at point `t`: `(t, 0)` for the matrix, the first column and the output, `(0, 0)` for the column and the weight. -/
theorem idx : ∀ t : Fin cfg8.N, win8_0.index t = ![t.val, 0] ∧ win8_1.index t = ![0, 0] ∧ win8_2.index t = ![t.val, 0]
    ∧ win8_3.index t = ![0, 0] ∧ win8_4.index t = ![t.val, 0] :=
  (by decide +kernel : ∀ t : Fin grid8.N, _)

theorem cover (i : S12288x1.Idx) :
    ∃ t : Fin cfg8.N, (cfg8.win 4).flush t = true ∧ i ∈ ((cfg8.win 4).blk t).view.set :=
  ⟨⟨(i 0).val / 384, (Rows.div_lt i).trans_eq N_8.symm⟩, flush8_4 _, by
    rw [View.set_slice_whole, Rect.mem_set_unit]; exact Rows.mem_rows i (idx _).2.2.2.2⟩

/-- Each point's block of the output is that block of the layer's column, and the blocks tile the array. -/
theorem arr_out (V : (c : Dev nD) → (b : Ref sig .tc) → Buf (Elt Ideal) ((c : Thread nD τ).loc b)) (c : Dev nD) :
    ((Cert.KernelIdeal.Layer8.dat (F := Ideal) V c).arrAt 4 cfg8.N : S12288x1.Idx → EReal)
      = Cert.Gcn.layer Cert.KernelIdeal.Pay.act8 (V c (Pipeline.arrRef spec8 0)) (V c (Pipeline.arrRef spec8 1)) (V c (Pipeline.arrRef spec8 2))
          ((V c (Pipeline.arrRef spec8 3) : S1x1.Idx → EReal) (ix2 (0 : Fin 1) (0 : Fin 1))) :=
  (Layer8.dat (F := Ideal) V c).arrAt_eq_of_cover 4 _ (fun t _ => by
    rw [Pipeline.Dat.flushed, Layer8.after4, Body.out_eq]
    exact funext (Rows.Stores.flushed Pay.pay8 _ _ _ _ (idx t) (win8_0.rect_emb_val t) (win8_1.rect_emb_val t)
      (win8_2.rect_emb_val t) (win8_3.rect_emb_val t) (win8_4.rect_emb_val t))) cover

end Cert.KernelIdeal.Layer8.Val

end
-- ==== Proof.KI.Chain.lean ====
import proofs.«156734_j4389456576945_1_alg».proof.Proof.KI.Fold
import proofs.«156734_j4389456576945_1_alg».proof.Proof.KI.Val0
import proofs.«156734_j4389456576945_1_alg».proof.Proof.KI.Val1
import proofs.«156734_j4389456576945_1_alg».proof.Proof.KI.Val2
import proofs.«156734_j4389456576945_1_alg».proof.Proof.KI.Val3
import proofs.«156734_j4389456576945_1_alg».proof.Proof.KI.Val4
import proofs.«156734_j4389456576945_1_alg».proof.Proof.KI.Val5
import proofs.«156734_j4389456576945_1_alg».proof.Proof.KI.Val6
import proofs.«156734_j4389456576945_1_alg».proof.Proof.KI.Val7
import proofs.«156734_j4389456576945_1_alg».proof.Proof.KI.Val8

noncomputable section

namespace Cert.KernelIdeal.Chain

open Cert.KernelIdeal Cert.KernelIdeal.Gen Cert.KernelIdeal.Fold
open Idealize.ShloMosaic Idealize.ShloMosaic.TcCoe Idealize.ShloMosaic.ValueIdx Idealize.SL.Sem

section Generic

variable {F : FTy → Type} [FloatOps F]

variable (m : (ℓ : Loc nD τ sig) → Buf (Elt F) ℓ) (c : Dev nD)

/-- The program's argument `r`, as found. -/
abbrev arg (r : Ref sig .tc) := m ((c.tc : Thread nD τ).loc r)

/-- A valuation that still holds the program's three arguments. -/
def Args (V : Valuation τ sig (Elt F)) : Prop :=
  ∀ r : Ref sig .tc, r = main_arg0 ∨ r = main_arg1 ∨ r = main_arg2 → V (r : DevRef τ sig) = arg m c r

variable {m c}

/-- A host stretch that writes none of the three keeps them, -/
theorem Args.keep {V : Valuation τ sig (Elt F)} (h : Args m c V) {W : List (Ref sig .tc)} {ops : List (HloOp τ sig (Elt F))}
    (hw : ops.Forall fun op => op.writes ⊆ (W.map (Proc.devRef (τ := τ) .tc)).toFinset)
    (hW : main_arg0 ∉ W ∧ main_arg1 ∉ W ∧ main_arg2 ∉ W) : Args m c (StableHlo.after ops V) := fun r hr =>
  (StableHlo.after_of_writes_sub ops V hw (by rcases hr with rfl | rfl | rfl; exacts [hW.1, hW.2.1, hW.2.2])).trans (h r hr)

/-- and so does rewriting another array. -/
theorem Args.update {V : Valuation τ sig (Elt F)} (h : Args m c V) {o : Ref sig .tc}
    (ho : main_arg0 ≠ o ∧ main_arg1 ≠ o ∧ main_arg2 ≠ o) (v) : Args m c (Function.update V (o : DevRef τ sig) v) := fun r hr =>
  (Function.update_of_ne (StableHlo.devRef_ne_of_ne (by rcases hr with rfl | rfl | rfl; exacts [ho.1, ho.2.1, ho.2.2])) _ _).trans (h r hr)

variable (m c)

theorem a0 : Args m c (B0 m c) := fun _ _ => rfl
theorem a1 : Args m c (B1 m c) := (a0 m c).keep hostOps0_writes (by decide)
theorem a2 : Args m c (B2 m c) := (a1 m c).update (by decide) _
theorem a3 : Args m c (B3 m c) := (a2 m c).keep hostOps1_writes (by decide)
theorem a4 : Args m c (B4 m c) := (a3 m c).update (by decide) _
theorem a5 : Args m c (B5 m c) := (a4 m c).keep hostOps2_writes (by decide)
theorem a6 : Args m c (B6 m c) := (a5 m c).update (by decide) _
theorem a7 : Args m c (B7 m c) := (a6 m c).keep hostOps3_writes (by decide)
theorem a8 : Args m c (B8 m c) := (a7 m c).update (by decide) _
theorem a9 : Args m c (B9 m c) := (a8 m c).keep hostOps4_writes (by decide)
theorem a10 : Args m c (B10 m c) := (a9 m c).update (by decide) _
theorem a11 : Args m c (B11 m c) := (a10 m c).keep hostOps5_writes (by decide)
theorem a12 : Args m c (B12 m c) := (a11 m c).update (by decide) _
theorem a13 : Args m c (B13 m c) := (a12 m c).keep hostOps6_writes (by decide)
theorem a14 : Args m c (B14 m c) := (a13 m c).update (by decide) _
theorem a15 : Args m c (B15 m c) := (a14 m c).keep hostOps7_writes (by decide)
theorem a16 : Args m c (B16 m c) := (a15 m c).update (by decide) _
theorem a17 : Args m c (B17 m c) := (a16 m c).keep hostOps8_writes (by decide)

theorem host9_out (V : Valuation τ sig (Elt F)) :
    StableHlo.after hostOps9 V (main_v28 : DevRef τ sig)
      = fptosi 32 (fun i => shapeCast S12288 (V (main_v26 : DevRef τ sig)) shapeCasts_S12288x1_S12288 i : FVec F S12288 .f32) := by
  after_results
  rfl

end Generic

section AtIdeal

theorem wslice_apply (k : Nat) (hk : k < 9) (a2 : FVec Ideal S9x1x1 .f32)
    (h : S9x1x1.Slices ![k, 0, 0] S1x1x1) (h' : S1x1x1.ShapeCasts S1x1) :
    shapeCast S1x1 (extractStridedSlice S1x1x1 ![k, 0, 0] a2 h) h' (ix2 (0 : Fin 1) (0 : Fin 1))
      = a2 (ix3 (⟨k, hk⟩ : Fin 9) (0 : Fin 1) (0 : Fin 1)) := by
  refine (shapeCast_apply _ h' (ix2 (0 : Fin 1) (0 : Fin 1)) (ix3 (0 : Fin 1) (0 : Fin 1) (0 : Fin 1)) ?_).trans ?_
  · rw [Shape.rowMajor_val_three, Shape.rowMajor_val_two]; rfl
  · exact extractStridedSlice_apply _ a2 h _ _ fun a => match a with
      | ⟨0, _⟩ => rfl
      | ⟨1, _⟩ => rfl
      | ⟨2, _⟩ => rfl

theorem layer_congr (a : Cert.Gcn.Act) {A A' : Cert.Gcn.Mat} {x x' y y' : Cert.Gcn.Col} {w w' : EReal}
    (hA : A = A') (hx : x = x') (hy : y = y') (hw : w = w') :
    Cert.Gcn.layer a A x y w = Cert.Gcn.layer a A' x' y' w' := by
  subst hA hx hy hw; rfl

/-- A [1,1] array that is slice k of the weights, reshaped, holds the k-th weight. -/
theorem wt_of (k : Fin 9) {W : FVec Ideal S1x1 .f32} {a2 a2' : FVec Ideal S9x1x1 .f32} {h : S9x1x1.Slices ![k.val, 0, 0] S1x1x1}
    {h' : S1x1x1.ShapeCasts S1x1} (hW : W = fun i => shapeCast S1x1 (extractStridedSlice S1x1x1 ![k.val, 0, 0] a2 h) h' i)
    (ha : a2 = a2') : W (ix2 (0 : Fin 1) (0 : Fin 1)) = Cert.Gcn.wt a2' k := by
  subst ha hW; exact wslice_apply k.val k.isLt a2 h h'

variable (m : (ℓ : Loc nD τ sig) → Buf (Elt Ideal) ℓ)

theorem w0 (c : Dev nD) :
    (B1 m c (main_v1 : DevRef τ sig) : S1x1.Idx → EReal) (ix2 (0 : Fin 1) (0 : Fin 1))
      = Cert.Gcn.wt (arg m c main_arg2) 0 :=
  wt_of 0 (by after_results; rfl) (a0 m c _ (.inr (.inr rfl)))

theorem X1 (c : Dev nD) :
    (B2 m c (main_v2 : DevRef τ sig) : S12288x1.Idx → EReal)
      = Cert.Gcn.x1 (arg m c main_arg1) (arg m c main_arg0) (arg m c main_arg2) :=
  (B2_out m c).trans ((Layer0.Val.arr_out (E1 m) c).trans
    (layer_congr _ (a1 m c _ (.inr (.inl rfl))) (a1 m c _ (.inl rfl)) (a1 m c _ (.inl rfl)) (w0 m c)))

theorem w1 (c : Dev nD) :
    (B3 m c (main_v4 : DevRef τ sig) : S1x1.Idx → EReal) (ix2 (0 : Fin 1) (0 : Fin 1))
      = Cert.Gcn.wt (arg m c main_arg2) 1 :=
  wt_of 1 (by after_results; rfl) (a2 m c _ (.inr (.inr rfl)))

theorem X2 (c : Dev nD) :
    (B4 m c (main_v5 : DevRef τ sig) : S12288x1.Idx → EReal)
      = Cert.Gcn.x2 (arg m c main_arg1) (arg m c main_arg0) (arg m c main_arg2) :=
  (B4_out m c).trans ((Layer1.Val.arr_out (E3 m) c).trans
    (layer_congr _ (a3 m c _ (.inr (.inl rfl))) ((B3_keep m c main_v2 (by decide)).trans (X1 m c)) (a3 m c _ (.inl rfl)) (w1 m c)))

theorem w2 (c : Dev nD) :
    (B5 m c (main_v7 : DevRef τ sig) : S1x1.Idx → EReal) (ix2 (0 : Fin 1) (0 : Fin 1))
      = Cert.Gcn.wt (arg m c main_arg2) 2 :=
  wt_of 2 (by after_results; rfl) (a4 m c _ (.inr (.inr rfl)))

theorem X3 (c : Dev nD) :
    (B6 m c (main_v8 : DevRef τ sig) : S12288x1.Idx → EReal)
      = Cert.Gcn.x3 (arg m c main_arg1) (arg m c main_arg0) (arg m c main_arg2) :=
  (B6_out m c).trans ((Layer2.Val.arr_out (E5 m) c).trans
    (layer_congr _ (a5 m c _ (.inr (.inl rfl))) ((B5_keep m c main_v5 (by decide)).trans (X2 m c)) (a5 m c _ (.inl rfl)) (w2 m c)))

theorem w3 (c : Dev nD) :
    (B7 m c (main_v10 : DevRef τ sig) : S1x1.Idx → EReal) (ix2 (0 : Fin 1) (0 : Fin 1))
      = Cert.Gcn.wt (arg m c main_arg2) 3 :=
  wt_of 3 (by after_results; rfl) (a6 m c _ (.inr (.inr rfl)))

theorem X4 (c : Dev nD) :
    (B8 m c (main_v11 : DevRef τ sig) : S12288x1.Idx → EReal)
      = Cert.Gcn.x4 (arg m c main_arg1) (arg m c main_arg0) (arg m c main_arg2) :=
  (B8_out m c).trans ((Layer3.Val.arr_out (E7 m) c).trans
    (layer_congr _ (a7 m c _ (.inr (.inl rfl))) ((B7_keep m c main_v8 (by decide)).trans (X3 m c)) (a7 m c _ (.inl rfl)) (w3 m c)))

theorem w4 (c : Dev nD) :
    (B9 m c (main_v13 : DevRef τ sig) : S1x1.Idx → EReal) (ix2 (0 : Fin 1) (0 : Fin 1))
      = Cert.Gcn.wt (arg m c main_arg2) 4 :=
  wt_of 4 (by after_results; rfl) (a8 m c _ (.inr (.inr rfl)))

theorem X5 (c : Dev nD) :
    (B10 m c (main_v14 : DevRef τ sig) : S12288x1.Idx → EReal)
      = Cert.Gcn.x5 (arg m c main_arg1) (arg m c main_arg0) (arg m c main_arg2) :=
  (B10_out m c).trans ((Layer4.Val.arr_out (E9 m) c).trans
    (layer_congr _ (a9 m c _ (.inr (.inl rfl))) ((B9_keep m c main_v11 (by decide)).trans (X4 m c)) (a9 m c _ (.inl rfl)) (w4 m c)))

theorem w5 (c : Dev nD) :
    (B11 m c (main_v16 : DevRef τ sig) : S1x1.Idx → EReal) (ix2 (0 : Fin 1) (0 : Fin 1))
      = Cert.Gcn.wt (arg m c main_arg2) 5 :=
  wt_of 5 (by after_results; rfl) (a10 m c _ (.inr (.inr rfl)))

theorem X6 (c : Dev nD) :
    (B12 m c (main_v17 : DevRef τ sig) : S12288x1.Idx → EReal)
      = Cert.Gcn.x6 (arg m c main_arg1) (arg m c main_arg0) (arg m c main_arg2) :=
  (B12_out m c).trans ((Layer5.Val.arr_out (E11 m) c).trans
    (layer_congr _ (a11 m c _ (.inr (.inl rfl))) ((B11_keep m c main_v14 (by decide)).trans (X5 m c)) (a11 m c _ (.inl rfl)) (w5 m c)))

theorem w6 (c : Dev nD) :
    (B13 m c (main_v19 : DevRef τ sig) : S1x1.Idx → EReal) (ix2 (0 : Fin 1) (0 : Fin 1))
      = Cert.Gcn.wt (arg m c main_arg2) 6 :=
  wt_of 6 (by after_results; rfl) (a12 m c _ (.inr (.inr rfl)))

theorem X7 (c : Dev nD) :
    (B14 m c (main_v20 : DevRef τ sig) : S12288x1.Idx → EReal)
      = Cert.Gcn.x7 (arg m c main_arg1) (arg m c main_arg0) (arg m c main_arg2) :=
  (B14_out m c).trans ((Layer6.Val.arr_out (E13 m) c).trans
    (layer_congr _ (a13 m c _ (.inr (.inl rfl))) ((B13_keep m c main_v17 (by decide)).trans (X6 m c)) (a13 m c _ (.inl rfl)) (w6 m c)))

theorem w7 (c : Dev nD) :
    (B15 m c (main_v22 : DevRef τ sig) : S1x1.Idx → EReal) (ix2 (0 : Fin 1) (0 : Fin 1))
      = Cert.Gcn.wt (arg m c main_arg2) 7 :=
  wt_of 7 (by after_results; rfl) (a14 m c _ (.inr (.inr rfl)))

theorem X8 (c : Dev nD) :
    (B16 m c (main_v23 : DevRef τ sig) : S12288x1.Idx → EReal)
      = Cert.Gcn.x8 (arg m c main_arg1) (arg m c main_arg0) (arg m c main_arg2) :=
  (B16_out m c).trans ((Layer7.Val.arr_out (E15 m) c).trans
    (layer_congr _ (a15 m c _ (.inr (.inl rfl))) ((B15_keep m c main_v20 (by decide)).trans (X7 m c)) (a15 m c _ (.inl rfl)) (w7 m c)))

theorem w8 (c : Dev nD) :
    (B17 m c (main_v25 : DevRef τ sig) : S1x1.Idx → EReal) (ix2 (0 : Fin 1) (0 : Fin 1))
      = Cert.Gcn.wt (arg m c main_arg2) 8 :=
  wt_of 8 (by after_results; rfl) (a16 m c _ (.inr (.inr rfl)))

theorem X9 (c : Dev nD) :
    (B18 m c (main_v26 : DevRef τ sig) : S12288x1.Idx → EReal)
      = Cert.Gcn.x9 (arg m c main_arg1) (arg m c main_arg0) (arg m c main_arg2) :=
  (B18_out m c).trans ((Layer8.Val.arr_out (E17 m) c).trans
    (layer_congr _ (a17 m c _ (.inr (.inl rfl))) ((B17_keep m c main_v23 (by decide)).trans (X8 m c)) (a17 m c _ (.inl rfl)) (w8 m c)))

theorem result_eq (m : (ℓ : Loc nD τ sig) → Buf (Elt Ideal) ℓ) (c : Dev nD) :
    (Cert.KernelIdeal.Fold.B19 m c (main_v28 : DevRef τ sig) : S12288.Idx → BitVec 32)
      = Cert.Gcn.result (m ((c.tc : Thread nD τ).loc main_arg0)) (m ((c.tc : Thread nD τ).loc main_arg1)) (m ((c.tc : Thread nD τ).loc main_arg2)) := by
  funext j
  obtain ⟨r, rfl⟩ : ∃ r : Fin 12288, j = ix1 r := ⟨j 0, eq_ix1 j⟩
  refine (congrFun (host9_out (B18 m c)) (ix1 r)).trans ?_
  show FloatOps.fptosi (F := Ideal) (φ := .f32) 32 (shapeCast S12288 (B18 m c (main_v26 : DevRef τ sig) : FVec Ideal S12288x1 .f32) shapeCasts_S12288x1_S12288 (ix1 r)) = _
  rw [shapeCast_apply (B18 m c (main_v26 : DevRef τ sig) : FVec Ideal S12288x1 .f32) shapeCasts_S12288x1_S12288 (ix1 r) (ix2 r (0 : Fin 1)) (by
    show (S12288x1.rowMajor (ix2 r (0 : Fin 1))).val = (S12288.rowMajor (ix1 r)).val
    rw [Shape.rowMajor_val_two, Shape.rowMajor_val_one]
    show r.val * 1 + 0 = r.val
    omega), X9]
  rfl

end AtIdeal

end Cert.KernelIdeal.Chain

end
-- ==== Proof.RefTerm.lean ====
import proofs.«156734_j4389456576945_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- Slice `k` of the nine weights, as a 1 x 1 matrix. -/
def wmat (k : ℕ) (h : S9x1x1.Slices ![k, 0, 0] S1x1x1) (a2 : FVec F S9x1x1 .f32) : FVec F S1x1 .f32 :=
  fun i => shapeCast S1x1 (extractStridedSlice S1x1x1 ![k, 0, 0] a2 h) shapeCasts_S1x1x1_S1x1 i

def splat (b : BitVec 32) : FVec F S12288x1 .f32 := broadcastInDim S12288x1 ![] bcast_S_S12288x1 (constant S_ .f32 b)

def lin (a1 : FVec F S12288x12288 .f32) (x a0 : FVec F S12288x1 .f32) (wm : FVec F S1x1 .f32) : FVec F S12288x1 .f32 :=
  Host.dotGeneral dot_S12288x1_S1x1_S12288x1_1_0_0_1_n_n none
    (addf (mulf (splat 0x3F333333#32) (Host.dotGeneral dot_S12288x12288_S12288x1_S12288x1_1_0_0_1_n_n none a1 x))
      (mulf (splat 0x3E99999A#32) a0))
    wm

def leaky (v : FVec F S12288x1 .f32) : FVec F S12288x1 .f32 :=
  select (cmpf .oge v (splat 0x00000000#32)) v (mulf (splat 0x3C23D70A#32) v)

def relu (v : FVec F S12288x1 .f32) : FVec F S12288x1 .f32 := maximumf v (splat 0x00000000#32)

def sigm (v : FVec F S12288x1 .f32) : FVec F S12288x1 .f32 :=
  Host.divf (splat 0x3F800000#32) (addf (splat 0x3F800000#32) (Host.exp (Host.negf v)))

variable (a0 : FVec F S12288x1 .f32) (a1 : FVec F S12288x12288 .f32) (a2 : FVec F S9x1x1 .f32)

def y1 : FVec F S12288x1 .f32 := lin a1 a0 a0 (wmat 0 slices_S9x1x1_S1x1x1_0_0_0 a2)
def y2 : FVec F S12288x1 .f32 := leaky (lin a1 (y1 a0 a1 a2) a0 (wmat 1 slices_S9x1x1_S1x1x1_1_0_0 a2))
def y3 : FVec F S12288x1 .f32 := relu (lin a1 (y2 a0 a1 a2) a0 (wmat 2 slices_S9x1x1_S1x1x1_2_0_0 a2))
def y4 : FVec F S12288x1 .f32 := relu (lin a1 (y3 a0 a1 a2) a0 (wmat 3 slices_S9x1x1_S1x1x1_3_0_0 a2))
def y5 : FVec F S12288x1 .f32 := sigm (lin a1 (y4 a0 a1 a2) a0 (wmat 4 slices_S9x1x1_S1x1x1_4_0_0 a2))
def y6 : FVec F S12288x1 .f32 := relu (lin a1 (y5 a0 a1 a2) a0 (wmat 5 slices_S9x1x1_S1x1x1_5_0_0 a2))
def y7 : FVec F S12288x1 .f32 := relu (lin a1 (y6 a0 a1 a2) a0 (wmat 6 slices_S9x1x1_S1x1x1_6_0_0 a2))
def y8 : FVec F S12288x1 .f32 := relu (lin a1 (y7 a0 a1 a2) a0 (wmat 7 slices_S9x1x1_S1x1x1_7_0_0 a2))
def y9 : FVec F S12288x1 .f32 :=
  mulf (splat 0x46400000#32) (sigm (lin a1 (y8 a0 a1 a2) a0 (wmat 8 slices_S9x1x1_S1x1x1_8_0_0 a2)))

def refTerm : IVec S12288 32 :=
  fptosi 32 (fun i => shapeCast S12288 (y9 a0 a1 a2) shapeCasts_S12288x1_S12288 i : FVec F S12288 .f32)

end Cert.ReferenceIdeal.RefTerm

end
-- ==== Proof.RefRun.lean ====
import proofs.«156734_j4389456576945_1_alg».proof.Proof.Gen.ReferenceIdeal
import proofs.«156734_j4389456576945_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The contents of a column buffer. -/
abbrev Col (F : FTy → Type) := (⟨S12288x1, .f32⟩ : BufTy).Contents (Elt F)

variable {F : FTy → Type} [FloatOps F]

/-- One layer: the weight's slice `k` as a 1 x 1 matrix, then `((0.7 (A x) + 0.3 x0) w)` into `o`; then `t`. -/
abbrev layer (k : ℕ) (hk : S9x1x1.Slices ![k, 0, 0] S1x1x1) (x : TRef sig ⟨S12288x1, .f32⟩) (w3 : TRef sig ⟨S1x1x1, .f32⟩)
    (w1 : TRef sig ⟨S1x1, .f32⟩) (h : TRef sig ⟨S12288x1, .f32⟩) (c7 : TRef sig ⟨S_, .f32⟩) (b7 m7 : TRef sig ⟨S12288x1, .f32⟩)
    (c3 : TRef sig ⟨S_, .f32⟩) (b3 m3 s o : TRef sig ⟨S12288x1, .f32⟩) (t : List (HloOp τ sig (Elt F))) : List (HloOp τ sig (Elt F)) :=
  TRef.unary (.of main_arg2) w3 ((extractStridedSlice S1x1x1 ![k, 0, 0] · hk) : (⟨S9x1x1, .f32⟩ : BufTy).Contents (Elt F) → (⟨S1x1x1, .f32⟩ : BufTy).Contents (Elt F)) ::
  TRef.reshape w3 w1 rfl shapeCasts_S1x1x1_S1x1 ::
  TRef.binary (.of main_arg1 : TRef sig ⟨S12288x12288, .f32⟩) x h (fun l r => Host.dotGeneral dot_S12288x12288_S12288x1_S12288x1_1_0_0_1_n_n none l r) ::
  TRef.nullary c7 (constant S_ .f32 0x3F333333#32) ::
  TRef.unary c7 b7 (broadcastInDim S12288x1 ![] bcast_S_S12288x1) ::
  TRef.binary b7 h m7 mulf ::
  TRef.nullary c3 (constant S_ .f32 0x3E99999A#32) ::
  TRef.unary c3 b3 (broadcastInDim S12288x1 ![] bcast_S_S12288x1) ::
  TRef.binary b3 (.of main_arg0) m3 mulf ::
  TRef.binary m7 m3 s addf ::
  TRef.binary s w1 o (fun l r => Host.dotGeneral dot_S12288x1_S1x1_S12288x1_1_0_0_1_n_n none l r) :: t

/-- `x` where `x ≥ 0`, else `0.01 x`, into `φ.call0.v0`; then `t`. -/
abbrev lrelu (x : TRef sig ⟨S12288x1, .f32⟩) (φ : fn_leaky_relu.Bufs) (t : List (HloOp τ sig (Elt F))) : List (HloOp τ sig (Elt F)) :=
  TRef.nullary φ.cst (constant S_ .f32 0x00000000#32) ::
  TRef.unary φ.cst φ.v0 (broadcastInDim S12288x1 ![] bcast_S_S12288x1) ::
  TRef.binary x φ.v0 φ.v1 (cmpf .oge) ::
  TRef.nullary φ.cst_0 (constant S_ .f32 0x3C23D70A#32) ::
  TRef.unary φ.cst_0 φ.v2 (broadcastInDim S12288x1 ![] bcast_S_S12288x1) ::
  TRef.binary φ.v2 x φ.v3 mulf ::
  TRef.ternary φ.v1 x φ.v3 φ.call0.v0 select :: t

/-- `max x 0` into `φ.v1`; then `t`. -/
abbrev relu (x : TRef sig ⟨S12288x1, .f32⟩) (φ : fn_relu.Bufs) (t : List (HloOp τ sig (Elt F))) : List (HloOp τ sig (Elt F)) :=
  TRef.nullary φ.cst (constant S_ .f32 0x00000000#32) ::
  TRef.unary φ.cst φ.v0 (broadcastInDim S12288x1 ![] bcast_S_S12288x1) ::
  TRef.binary x φ.v0 φ.v1 maximumf :: t

/-- `1 / (1 + exp (-x))` into `o`; then `t`. -/
abbrev sigm (x n e : TRef sig ⟨S12288x1, .f32⟩) (c1 : TRef sig ⟨S_, .f32⟩) (b1 a : TRef sig ⟨S12288x1, .f32⟩) (c2 : TRef sig ⟨S_, .f32⟩)
    (b2 o : TRef sig ⟨S12288x1, .f32⟩) (t : List (HloOp τ sig (Elt F))) : List (HloOp τ sig (Elt F)) :=
  TRef.unary x n Host.negf ::
  TRef.unary n e Host.exp ::
  TRef.nullary c1 (constant S_ .f32 0x3F800000#32) ::
  TRef.unary c1 b1 (broadcastInDim S12288x1 ![] bcast_S_S12288x1) ::
  TRef.binary b1 e a addf ::
  TRef.nullary c2 (constant S_ .f32 0x3F800000#32) ::
  TRef.unary c2 b2 (broadcastInDim S12288x1 ![] bcast_S_S12288x1) ::
  TRef.binary b2 a o Host.divf :: t

abbrev ops : List (HloOp τ sig (Elt F)) :=
  layer 0 slices_S9x1x1_S1x1x1_0_0_0 (.of main_arg0) (.of main_v0) (.of main_v1) (.of main_v2) (.of main_cst) (.of main_v3) (.of main_v4) (.of main_cst_0) (.of main_v5) (.of main_v6) (.of main_v7) (.of main_v8) <|
  layer 1 slices_S9x1x1_S1x1x1_1_0_0 (.of main_v8) (.of main_v9) (.of main_v10) (.of main_v11) (.of main_cst_1) (.of main_v12) (.of main_v13) (.of main_cst_2) (.of main_v14) (.of main_v15) (.of main_v16) (.of main_v17) <|
  lrelu (.of main_v17) main_call0 <|
  layer 2 slices_S9x1x1_S1x1x1_2_0_0 (.of main_v18) (.of main_v19) (.of main_v20) (.of main_v21) (.of main_cst_3) (.of main_v22) (.of main_v23) (.of main_cst_4) (.of main_v24) (.of main_v25) (.of main_v26) (.of main_v27) <| relu (.of main_v27) main_call1 <|
  layer 3 slices_S9x1x1_S1x1x1_3_0_0 (.of main_v28) (.of main_v29) (.of main_v30) (.of main_v31) (.of main_cst_5) (.of main_v32) (.of main_v33) (.of main_cst_6) (.of main_v34) (.of main_v35) (.of main_v36) (.of main_v37) <| relu (.of main_v37) main_call2 <|
  layer 4 slices_S9x1x1_S1x1x1_4_0_0 (.of main_v38) (.of main_v39) (.of main_v40) (.of main_v41) (.of main_cst_7) (.of main_v42) (.of main_v43) (.of main_cst_8) (.of main_v44) (.of main_v45) (.of main_v46) (.of main_v47) <|
  sigm (.of main_v47) (.of main_v48) (.of main_v49) (.of main_cst_9) (.of main_v50) (.of main_v51) (.of main_cst_10) (.of main_v52) (.of main_v53) <|
  layer 5 slices_S9x1x1_S1x1x1_5_0_0 (.of main_v53) (.of main_v54) (.of main_v55) (.of main_v56) (.of main_cst_11) (.of main_v57) (.of main_v58) (.of main_cst_12) (.of main_v59) (.of main_v60) (.of main_v61) (.of main_v62) <| relu (.of main_v62) main_call3 <|
  layer 6 slices_S9x1x1_S1x1x1_6_0_0 (.of main_v63) (.of main_v64) (.of main_v65) (.of main_v66) (.of main_cst_13) (.of main_v67) (.of main_v68) (.of main_cst_14) (.of main_v69) (.of main_v70) (.of main_v71) (.of main_v72) <| relu (.of main_v72) main_call4 <|
  layer 7 slices_S9x1x1_S1x1x1_7_0_0 (.of main_v73) (.of main_v74) (.of main_v75) (.of main_v76) (.of main_cst_15) (.of main_v77) (.of main_v78) (.of main_cst_16) (.of main_v79) (.of main_v80) (.of main_v81) (.of main_v82) <| relu (.of main_v82) main_call5 <|
  layer 8 slices_S9x1x1_S1x1x1_8_0_0 (.of main_v83) (.of main_v84) (.of main_v85) (.of main_v86) (.of main_cst_17) (.of main_v87) (.of main_v88) (.of main_cst_18) (.of main_v89) (.of main_v90) (.of main_v91) (.of main_v92) <|
  sigm (.of main_v92) (.of main_v93) (.of main_v94) (.of main_cst_19) (.of main_v95) (.of main_v96) (.of main_cst_20) (.of main_v97) (.of main_v98)
  [ nullary main_cst_21 (constant S_ .f32 0x46400000#32),
    unary main_cst_21 main_v99 (broadcastInDim S12288x1 ![] bcast_S_S12288x1 : (⟨S_, .f32⟩ : BufTy).Contents (Elt F) → Col F),
    binary main_v99 main_v98 main_v100 (mulf : Col F → Col F → Col F),
    reshape main_v100 main_v101 rfl shapeCasts_S12288x1_S12288,
    unary main_v101 main_v102 (fptosi 32 : (⟨S12288, .f32⟩ : BufTy).Contents (Elt F) → (⟨S12288, .i32⟩ : BufTy).Contents (Elt F)) ]

set_option maxRecDepth 4096 in
set_option maxHeartbeats 4000000 in

theorem main_eq (c : Dev nD) : main (F := F) c = seq ops := by
  simp only [main, main_part0, main_part1, main_part2, fn_leaky_relu.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 65536 in
set_option maxHeartbeats 4000000 in

theorem out_eq (V : Valuation τ sig (Elt F)) :
    after ops V (main_v102 : DevRef τ sig)
      = Cert.ReferenceIdeal.RefTerm.refTerm (V (main_arg0 : DevRef τ sig)) (V (main_arg1 : DevRef τ sig)) (V (main_arg2 : DevRef τ sig)) := by
  after_results_simp
  rfl

set_option maxRecDepth 65536 in
set_option maxHeartbeats 4000000 in

theorem arg0_eq (V : Valuation τ sig (Elt F)) : after ops V (main_arg0 : DevRef τ sig) = V (main_arg0 : DevRef τ sig) := by
  after_results_simp

set_option maxRecDepth 65536 in
set_option maxHeartbeats 4000000 in

theorem arg1_eq (V : Valuation τ sig (Elt F)) : after ops V (main_arg1 : DevRef τ sig) = V (main_arg1 : DevRef τ sig) := by
  after_results_simp

set_option maxRecDepth 65536 in
set_option maxHeartbeats 4000000 in

theorem arg2_eq (V : Valuation τ sig (Elt F)) : after ops V (main_arg2 : DevRef τ sig) = V (main_arg2 : DevRef τ sig) := by
  after_results_simp

end Cert.ReferenceIdeal.RefRun

end
-- ==== Proof.RefValue.lean ====
import proofs.«156734_j4389456576945_1_alg».proof.Proof.Spec
import proofs.«156734_j4389456576945_1_alg».proof.Proof.RefTerm
import Idealize.ShloMosaic.PureOps.Ideal.Laws
import Idealize.ShloMosaic.Lib.ValueIdx
import Idealize.ShloMosaic.Lib.Pipeline.Value
import Idealize.ShloMosaic.Lib.StackMember

noncomputable section

namespace Cert.ReferenceIdeal.RefValue

open Cert.ReferenceIdeal Cert.ReferenceIdeal.Gen Cert.ReferenceIdeal.RefTerm Idealize.ShloMosaic Idealize.ShloMosaic.ValueIdx

theorem wmat_apply (k : Nat) (hk : k < 9) (a2 : FVec Ideal S9x1x1 .f32) (h : S9x1x1.Slices ![k, 0, 0] S1x1x1) :
    wmat k h a2 (ix2 (0 : Fin 1) (0 : Fin 1)) = a2 (ix3 (⟨k, hk⟩ : Fin 9) (0 : Fin 1) (0 : Fin 1)) := by
  refine (shapeCast_apply _ shapeCasts_S1x1x1_S1x1 (ix2 (0 : Fin 1) (0 : Fin 1)) (ix3 (0 : Fin 1) (0 : Fin 1) (0 : Fin 1)) ?_).trans ?_
  · rw [Shape.rowMajor_val_three, Shape.rowMajor_val_two]; rfl
  · exact extractStridedSlice_apply _ a2 h _ _ fun a => match a with
      | ⟨0, _⟩ => rfl
      | ⟨1, _⟩ => rfl
      | ⟨2, _⟩ => rfl

theorem dotA_eq : dot_S12288x12288_S12288x1_S12288x1_1_0_0_1_n_n = DotDims.plain 12288 12288 1 := rfl

theorem dotW_eq : dot_S12288x1_S1x1_S12288x1_1_0_0_1_n_n = DotDims.plain 12288 1 1 := rfl

theorem splat_apply (b : BitVec 32) (i : S12288x1.Idx) : splat (F := Ideal) b i = Ideal.ofBits .f32 b := rfl

theorem lin_apply (a1 : FVec Ideal S12288x12288 .f32) (x a0 : FVec Ideal S12288x1 .f32) (wm : FVec Ideal S1x1 .f32)
    (r : Fin 12288) (q : Fin 1) :
    lin a1 x a0 wm (ix2 r q) = Cert.Gcn.pre a1 x a0 (wm (ix2 (0 : Fin 1) (0 : Fin 1))) r := by
  obtain rfl : q = 0 := Subsingleton.elim _ _
  unfold lin
  rw [dotW_eq, StackMember.dotGeneral_plain_apply, Fin.sum_univ_one, addf_apply, mulf_apply, mulf_apply, splat_apply,
    splat_apply, dotA_eq, StackMember.dotGeneral_plain_apply]
  rfl

theorem lin_eq (a1 : FVec Ideal S12288x12288 .f32) (x a0 : FVec Ideal S12288x1 .f32) (wm : FVec Ideal S1x1 .f32)
    (w : EReal) (hw : wm (ix2 (0 : Fin 1) (0 : Fin 1)) = w) :
    lin a1 x a0 wm = fun i => Cert.Gcn.pre a1 x a0 w (i 0) := by
  funext i
  obtain ⟨r, q, rfl⟩ : ∃ (r : Fin 12288) (q : Fin 1), i = ix2 r q := ⟨i 0, i 1, eq_ix2 i⟩
  rw [lin_apply, hw]

theorem ofBits_one_f32 : Ideal.ofBits .f32 0x3F800000#32 = 1 := by
  simp [Ideal.ofBits, Ideal.ieee, -EReal.coe_mul]; norm_num

theorem leaky_eq (v : FVec Ideal S12288x1 .f32) : leaky v = fun i => Cert.Gcn.Act.leaky.ap (v i) := rfl

theorem relu_eq (v : FVec Ideal S12288x1 .f32) : relu v = fun i => Cert.Gcn.Act.relu.ap (v i) := rfl

theorem sigm_eq (v : FVec Ideal S12288x1 .f32) : sigm v = fun i => Ideal.logistic (v i) := by
  funext i
  show Ideal.div (Ideal.ofBits .f32 0x3F800000#32) (Ideal.ofBits .f32 0x3F800000#32 + Ideal.exp (-(v i))) = _
  rw [ofBits_one_f32]
  rfl

section Columns
variable (a0 : FVec Ideal S12288x1 .f32) (a1 : FVec Ideal S12288x12288 .f32) (a2 : FVec Ideal S9x1x1 .f32)

theorem y1_eq : y1 a0 a1 a2 = Cert.Gcn.x1 a1 a0 a2 := by
  unfold y1 Cert.Gcn.x1
  rw [lin_eq a1 a0 a0 _ _ (wmat_apply 0 (by omega) a2 _)]
  rfl

theorem y2_eq : y2 a0 a1 a2 = Cert.Gcn.x2 a1 a0 a2 := by
  unfold y2 Cert.Gcn.x2
  rw [y1_eq, lin_eq a1 _ a0 _ _ (wmat_apply 1 (by omega) a2 _), leaky_eq]
  rfl

theorem y3_eq : y3 a0 a1 a2 = Cert.Gcn.x3 a1 a0 a2 := by
  unfold y3 Cert.Gcn.x3
  rw [y2_eq, lin_eq a1 _ a0 _ _ (wmat_apply 2 (by omega) a2 _), relu_eq]
  rfl

theorem y4_eq : y4 a0 a1 a2 = Cert.Gcn.x4 a1 a0 a2 := by
  unfold y4 Cert.Gcn.x4
  rw [y3_eq, lin_eq a1 _ a0 _ _ (wmat_apply 3 (by omega) a2 _), relu_eq]
  rfl

theorem y5_eq : y5 a0 a1 a2 = Cert.Gcn.x5 a1 a0 a2 := by
  unfold y5 Cert.Gcn.x5
  rw [y4_eq, lin_eq a1 _ a0 _ _ (wmat_apply 4 (by omega) a2 _), sigm_eq]
  rfl

theorem y6_eq : y6 a0 a1 a2 = Cert.Gcn.x6 a1 a0 a2 := by
  unfold y6 Cert.Gcn.x6
  rw [y5_eq, lin_eq a1 _ a0 _ _ (wmat_apply 5 (by omega) a2 _), relu_eq]
  rfl

theorem y7_eq : y7 a0 a1 a2 = Cert.Gcn.x7 a1 a0 a2 := by
  unfold y7 Cert.Gcn.x7
  rw [y6_eq, lin_eq a1 _ a0 _ _ (wmat_apply 6 (by omega) a2 _), relu_eq]
  rfl

theorem y8_eq : y8 a0 a1 a2 = Cert.Gcn.x8 a1 a0 a2 := by
  unfold y8 Cert.Gcn.x8
  rw [y7_eq, lin_eq a1 _ a0 _ _ (wmat_apply 7 (by omega) a2 _), relu_eq]
  rfl

theorem y9_eq : y9 a0 a1 a2 = Cert.Gcn.x9 a1 a0 a2 := by
  unfold y9 Cert.Gcn.x9
  rw [y8_eq, lin_eq a1 _ a0 _ _ (wmat_apply 8 (by omega) a2 _), sigm_eq]
  funext i
  rw [mulf_apply, splat_apply]
  exact mul_comm _ _

end Columns

theorem refTerm_eq (a0 : FVec Ideal S12288x1 .f32) (a1 : FVec Ideal S12288x12288 .f32) (a2 : FVec Ideal S9x1x1 .f32) :
    Cert.ReferenceIdeal.RefTerm.refTerm (F := Ideal) a0 a1 a2 = Cert.Gcn.result a0 a1 a2 := by
  funext j
  obtain ⟨r, rfl⟩ : ∃ r : Fin 12288, j = ix1 r := ⟨j 0, eq_ix1 j⟩
  unfold refTerm Cert.Gcn.result
  show FloatOps.fptosi 32 (shapeCast S12288 (y9 a0 a1 a2) shapeCasts_S12288x1_S12288 (ix1 r)) = _
  rw [shapeCast_apply (y9 a0 a1 a2) shapeCasts_S12288x1_S12288 (ix1 r) (ix2 r (0 : Fin 1)) (by
    rw [Shape.rowMajor_val_two, Shape.rowMajor_val_one]
    show r.val * 1 + 0 = r.val
    omega), y9_eq]

end Cert.ReferenceIdeal.RefValue

end
-- ==== Proof.lean ====
import proofs.«156734_j4389456576945_1_alg».proof.Defs
import proofs.«156734_j4389456576945_1_alg».proof.Proof.Gen.Kernel
import proofs.«156734_j4389456576945_1_alg».proof.Proof.Gen.KernelIdeal
import proofs.«156734_j4389456576945_1_alg».proof.Proof.Gen.ReferenceIdeal
import proofs.«156734_j4389456576945_1_alg».proof.Proof.Gen.Pre_finite_inputs
import proofs.«156734_j4389456576945_1_alg».proof.Proof.KI.Run
import proofs.«156734_j4389456576945_1_alg».proof.Proof.KI.Chain
import proofs.«156734_j4389456576945_1_alg».proof.Proof.RefRun
import proofs.«156734_j4389456576945_1_alg».proof.Proof.RefValue
import Idealize.ShloMosaic.Adequacy
import Idealize.ShloMosaic.Init

noncomputable section

namespace Cert.Proof

open Idealize.ShloMosaic Idealize.ShloMosaic.TcCoe Idealize.SL.Sem

/-- This program is the idealized program's text under another name, and that program's frame holds for any float
    instance: at this claim's instance it is the same proposition once both sides are unfolded. -/
theorem frame_k : Cert.frame_Kernel (hKernel := Cert.Kernel.Gen.facts) (hPre_finite_inputs := Cert.Pre_finite_inputs.Gen.facts) :=
  fun m ρ _ => cast (by chain_rfl) (Cert.KernelIdeal.Run.frame (F := Bits) m ρ)

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _)⟩)
    (Cert.ReferenceIdeal.RefRun.run_main (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Chain.result_eq m c), (h c).2⟩)
      (Cert.KernelIdeal.Run.run_result (F := Ideal) m ρ)
  · refine (θ_run Cert.ReferenceIdeal.defs _ _).mono (fun _ h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _)⟩)
      (Cert.ReferenceIdeal.RefRun.run_main (F := Ideal) m' ρ')
    refine ((h c Cert.ReferenceIdeal.main_v102).trans (Cert.ReferenceIdeal.RefRun.out_eq _)).trans ?_
    refine (Cert.ReferenceIdeal.RefValue.refTerm_eq _ _ _).trans ?_
    show _ = Cert.Gcn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
    rw [← (hagree c).1, ← (hagree c).2.1, ← (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
